-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S1600000 : Shape := ⟨1, ![1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x128 : S_.BroadcastsInDim S384x128 (![] : Fin 0 → Fin S384x128.rank)
  reducesTo_S384x128_S_d0_1 : S384x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S256 .f32) (main_arg24 : FVec F S256x2 .f32) (main_arg25 : FVec F S2 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg23
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x2 .f32 := Host.absf main_arg24
  let main_cst_42 : FVec F S_ .f32 := constant S_ .f32 0x7F800000#32
  let main_v110 : FVec F S256x2 .f32 := broadcastInDim S256x2 ![] bcast_S_S256x2 main_cst_42
  let main_v111 : IVec S256x2 1 := cmpf .olt main_v109 main_v110
  let main_c_43 : IVec S_ 1 := constantI S_ 1 1#1
  let main_v112 : IVec S_ 1 := (fun x v => Host.reduce IntOp.andi x v reducesTo_S256x2_S_d0_1 h_S_) main_v111 main_c_43
  let main_v113 : IVec S_ 1 := andi main_v108 main_v112
  let main_v114 : FVec F S2 .f32 := Host.absf main_arg25
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg20 : FVec F S256 .f32) (main_arg21 : FVec F S256 .f32) (main_arg22 : FVec F S256 .f32) (main_arg23 : FVec F S256 .f32) (main_arg24 : FVec F S256x2 .f32) (main_arg25 : FVec F S2 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg23 main_arg24 main_arg25 main_v98 main_v101 main_c_39

def fn_part4 {F : FTy → Type} [FloatOps F] (main_arg16 : FVec F S384x128 .f32) (main_arg17 : FVec F S128 .f32) (main_arg18 : FVec F S128x256 .f32) (main_arg19 : FVec F S256 .f32) (main_arg20 : FVec F S256 .f32) (main_arg21 : FVec F S256 .f32) (main_arg22 : FVec F S256 .f32) (main_arg23 : FVec F S256 .f32) (main_arg24 : FVec F S256x2 .f32) (main_arg25 : FVec F S2 .f32) (main_v63 : IVec S_ 1) (main_v67 : IVec S_ 1) : IVec S_ 1 :=
  let main_v68 : IVec S_ 1 := andi main_v63 main_v67
  let main_v69 : FVec F S384x128 .f32 := Host.absf main_arg16
  let main_cst_26 : FVec F S_ .f32 := constant S_ .f32 0x7F800000#32
  let main_v70 : FVec F S384x128 .f32 := broadcastInDim S384x128 ![] bcast_S_S384x128 main_cst_26
  let main_v71 : IVec S384x128 1 := cmpf .olt main_v69 main_v70
  let main_c_27 : IVec S_ 1 := constantI S_ 1 1#1
  let main_v72 : IVec S_ 1 := (fun x v => Host.reduce IntOp.andi x v reducesTo_S384x128_S_d0_1 h_S_) main_v71 main_c_27
  let main_v73 : IVec S_ 1 := andi main_v68 main_v72
  let main_v74 : FVec F S128 .f32 := Host.absf main_arg17
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x256 .f32 := Host.absf main_arg18
  let main_cst_30 : FVec F S_ .f32 := constant S_ .f32 0x7F800000#32
  let main_v80 : FVec F S128x256 .f32 := broadcastInDim S128x256 ![] bcast_S_S128x256 main_cst_30
  let main_v81 : IVec S128x256 1 := cmpf .olt main_v79 main_v80
  let main_c_31 : IVec S_ 1 := constantI S_ 1 1#1
  let main_v82 : IVec S_ 1 := (fun x v => Host.reduce IntOp.andi x v reducesTo_S128x256_S_d0_1 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg20 main_arg21 main_arg22 main_arg23 main_arg24 main_arg25 main_v83 main_v84 main_cst_32

def fn_part3 {F : FTy → Type} [FloatOps F] (main_arg13 : FVec F S128 .f32) (main_arg14 : FVec F S128x128 .f32) (main_arg15 : FVec F S128 .f32) (main_arg16 : FVec F S384x128 .f32) (main_arg17 : FVec F S128 .f32) (main_arg18 : FVec F S128x256 .f32) (main_arg19 : FVec F S256 .f32) (main_arg20 : FVec F S256 .f32) (main_arg21 : FVec F S256 .f32) (main_arg22 : FVec F S256 .f32) (main_arg23 : FVec F S256 .f32) (main_arg24 : FVec F S256x2 .f32) (main_arg25 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg14
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg16 main_arg17 main_arg18 main_arg19 main_arg20 main_arg21 main_arg22 main_arg23 main_arg24 main_arg25 main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x256 .f32) (main_arg19 : FVec F S256 .f32) (main_arg20 : FVec F S256 .f32) (main_arg21 : FVec F S256 .f32) (main_arg22 : FVec F S256 .f32) (main_arg23 : FVec F S256 .f32) (main_arg24 : FVec F S256x2 .f32) (main_arg25 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_arg16 main_arg17 main_arg18 main_arg19 main_arg20 main_arg21 main_arg22 main_arg23 main_arg24 main_arg25 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x256 .f32) (main_arg19 : FVec F S256 .f32) (main_arg20 : FVec F S256 .f32) (main_arg21 : FVec F S256 .f32) (main_arg22 : FVec F S256 .f32) (main_arg23 : FVec F S256 .f32) (main_arg24 : FVec F S256x2 .f32) (main_arg25 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S100000x7 .f32) (main_arg1 : IVec S2x1600000 32) (main_arg2 : FVec F S1600000 .f32) (main_arg3 : IVec S100000 32) (main_arg4 : FVec F S7x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_arg16 : FVec F S384x128 .f32) (main_arg17 : FVec F S128 .f32) (main_arg18 : FVec F S128x256 .f32) (main_arg19 : FVec F S256 .f32) (main_arg20 : FVec F S256 .f32) (main_arg21 : FVec F S256 .f32) (main_arg22 : FVec F S256 .f32) (main_arg23 : FVec F S256 .f32) (main_arg24 : FVec F S256x2 .f32) (main_arg25 : FVec F S2 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S7x128 .f32 := Host.absf main_arg4
  let main_cst_2 : FVec F S_ .f32 := constant S_ .f32 0x7F800000#32
  let main_v10 : FVec F S7x128 .f32 := broadcastInDim S7x128 ![] bcast_S_S7x128 main_cst_2
  let main_v11 : IVec S7x128 1 := cmpf .olt main_v9 main_v10
  let main_c_3 : IVec S_ 1 := constantI S_ 1 1#1
  let main_v12 : IVec S_ 1 := (fun x v => Host.reduce IntOp.andi x v reducesTo_S7x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S100000x7 : Shape := ⟨2, ![100000, 7]⟩
abbrev S2x1600000 : Shape := ⟨2, ![2, 1600000]⟩
abbrev S1600000 : Shape := ⟨1, ![1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x7 : Shape := ⟨2, ![1600000, 7]⟩
abbrev S1x128 : Shape := ⟨2, ![1, 128]⟩
abbrev S100000x128 : Shape := ⟨2, ![100000, 128]⟩
abbrev S2000x7 : Shape := ⟨2, ![2000, 7]⟩
abbrev S2000x128 : Shape := ⟨2, ![2000, 128]⟩
abbrev S1600000x128 : Shape := ⟨2, ![1600000, 128]⟩
abbrev S1x256 : Shape := ⟨2, ![1, 256]⟩
abbrev S1x2 : Shape := ⟨2, ![1, 2]⟩
abbrev S100000x1 : Shape := ⟨2, ![100000, 1]⟩
abbrev S2000x1 : Shape := ⟨2, ![2000, 1]⟩
abbrev S256x128 : Shape := ⟨2, ![256, 128]⟩
abbrev S2000x256 : Shape := ⟨2, ![2000, 256]⟩
abbrev S256x256 : Shape := ⟨2, ![256, 256]⟩

abbrev nBuf : Space → Nat
  | .hbm => 90
  | .vmem => 52
  | .smem => 0
  | _ => 0

abbrev bufTy : (tb : Table) → Fin (tcTables nBuf tb) → BufTy
  | .hbm, ⟨0, _⟩ => ⟨S100000x7, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S7x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S384x128, .f32⟩
  | .hbm, ⟨17, _⟩ => ⟨S128, .f32⟩
  | .hbm, ⟨18, _⟩ => ⟨S128x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256x2, .f32⟩
  | .hbm, ⟨25, _⟩ => ⟨S2, .f32⟩
  | .hbm, ⟨26, _⟩ => ⟨S1x1600000, .i32⟩
  | .hbm, ⟨27, _⟩ => ⟨S1600000, .i32⟩
  | .hbm, ⟨28, _⟩ => ⟨S1x1600000, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x7, .f32⟩
  | .hbm, ⟨39, _⟩ => ⟨S_, .f32⟩
  | .hbm, ⟨40, _⟩ => ⟨S100000x7, .f32⟩
  | .hbm, ⟨41, _⟩ => ⟨S1600000x1, .i32⟩
  | .hbm, ⟨42, _⟩ => ⟨S100000x7, .f32⟩
  | .hbm, ⟨43, _⟩ => ⟨S1x128, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S1x128, .f32⟩
  | .hbm, ⟨77, _⟩ => ⟨S100000x128, .f32⟩
  | .hbm, ⟨78, _⟩ => ⟨S128x128, .f32⟩
  | .hbm, ⟨79, _⟩ => ⟨S128x128, .f32⟩
  | .hbm, ⟨80, _⟩ => ⟨S128x128, .f32⟩
  | .hbm, ⟨81, _⟩ => ⟨S1x128, .f32⟩
  | .hbm, ⟨82, _⟩ => ⟨S1x256, .f32⟩
  | .hbm, ⟨83, _⟩ => ⟨S1x256, .f32⟩
  | .hbm, ⟨84, _⟩ => ⟨S1x256, .f32⟩
  | .hbm, ⟨85, _⟩ => ⟨S1x256, .f32⟩
  | .hbm, ⟨86, _⟩ => ⟨S1x256, .f32⟩
  | .hbm, ⟨87, _⟩ => ⟨S1x2, .f32⟩
  | .hbm, ⟨88, _⟩ => ⟨S100000x1, .i32⟩
  | .hbm, ⟨89, _⟩ => ⟨S256x2, .f32⟩
  | .local _ .vmem, ⟨0, _⟩ => ⟨S2000x7, .f32⟩
  | .local _ .vmem, ⟨1, _⟩ => ⟨S2000x7, .f32⟩
  | .local _ .vmem, ⟨2, _⟩ => ⟨S2000x7, .f32⟩
  | .local _ .vmem, ⟨3, _⟩ => ⟨S2000x7, .f32⟩
  | .local _ .vmem, ⟨4, _⟩ => ⟨S7x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x1, .i32⟩
  | .local _ .vmem, ⟨37, _⟩ => ⟨S2000x1, .i32⟩
  | .local _ .vmem, ⟨38, _⟩ => ⟨S128x128, .f32⟩
  | .local _ .vmem, ⟨39, _⟩ => ⟨S128x128, .f32⟩
  | .local _ .vmem, ⟨40, _⟩ => ⟨S128x128, .f32⟩
  | .local _ .vmem, ⟨41, _⟩ => ⟨S1x128, .f32⟩
  | .local _ .vmem, ⟨42, _⟩ => ⟨S128x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S256x2, .f32⟩
  | .local _ .vmem, ⟨49, _⟩ => ⟨S1x2, .f32⟩
  | .local _ .vmem, ⟨50, _⟩ => ⟨S256x2, .f32⟩
  | .local _ .vmem, ⟨51, _⟩ => ⟨S256x128, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_1 : Ref sig .tc := ⟨.hbm, 46, rfl⟩
abbrev main_v17 : Ref sig .tc := ⟨.hbm, 47, rfl⟩
abbrev main_v18 : Ref sig .tc := ⟨.hbm, 48, rfl⟩
abbrev main_c_2 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_c_4 : Ref sig .tc := ⟨.hbm, 62, rfl⟩
abbrev main_v30 : Ref sig .tc := ⟨.hbm, 63, rfl⟩
abbrev main_v31 : Ref sig .tc := ⟨.hbm, 64, rfl⟩
abbrev main_c_5 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_6 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg7_0 : Ref sig .tc := ⟨.vmem, 41, rfl⟩
abbrev cc3_stg8_0 : Ref sig .tc := ⟨.vmem, 42, rfl⟩
abbrev cc3_stg9_0 : Ref sig .tc := ⟨.vmem, 43, rfl⟩
abbrev cc3_stg10_0 : Ref sig .tc := ⟨.vmem, 44, rfl⟩
abbrev cc3_stg11_0 : Ref sig .tc := ⟨.vmem, 45, rfl⟩
abbrev cc3_stg12_0 : Ref sig .tc := ⟨.vmem, 46, rfl⟩
abbrev cc3_stg13_0 : Ref sig .tc := ⟨.vmem, 47, rfl⟩
abbrev cc3_stg14_0 : Ref sig .tc := ⟨.vmem, 48, rfl⟩
abbrev cc3_stg15_0 : Ref sig .tc := ⟨.vmem, 49, rfl⟩
abbrev cc3_stg16_0 : Ref sig .tc := ⟨.vmem, 50, rfl⟩
abbrev cc3_scratch0 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem3_1 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem11_0 : DmaSem sig := 45
abbrev cc3_sem12_0 : DmaSem sig := 46
abbrev cc3_sem13_0 : DmaSem sig := 47
abbrev cc3_sem14_0 : DmaSem sig := 48
abbrev cc3_sem15_0 : DmaSem sig := 49
abbrev cc3_sem16_0 : DmaSem sig := 50

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v45 : BitVec 1 := Scalar.cmpi .eq arg0 c49_i32
  let v46 : BitVec 32 := Scalar.extui v45
  let c0_i32_23 : BitVec 32 := 0#32
  let v47 : BitVec 1 := Scalar.cmpi .ne v46 c0_i32_23
  v47

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x256 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x256 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x256 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x256 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S256x2 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x2 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S256x2 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  shapeCasts_S128_S1x128 : S128.ShapeCasts S1x128
  inb_S2000x7_S2000x7_0_0 : ∀ a, (![0, 0] : Fin 2 → Nat) a + S2000x7.size a ≤ S2000x7.size a
  h_S2000x7 : 0 < S2000x7.numel
  shapeCasts_S2000x7_S2000x7 : S2000x7.ShapeCasts S2000x7
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S2000x128_S2000x128 : S2000x128.ShapeCasts S2000x128
  slices_S384x128_S128x128_0_0 : S384x128.Slices ![0, 0] S128x128
  slices_S384x128_S128x128_128_0 : S384x128.Slices ![128, 0] S128x128
  slices_S384x128_S128x128_256_0 : S384x128.Slices ![256, 0] S128x128
  shapeCasts_S256_S1x256 : S256.ShapeCasts S1x256
  shapeCasts_S2_S1x2 : S2.ShapeCasts S1x2
  shapeCasts_S100000_S100000x1 : S100000.ShapeCasts S100000x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128x128_S128x128 : S128x128.ShapeCasts S128x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S256x2 : S1x2.Broadcasts S256x2
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S2000x7_S7x128_S2000x128_1_0_0_1_n_n_wf : DotDims.WF S2000x7 S7x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x256_S2000x128_S256x128_0_0_1_1_n_n_wf : DotDims.WF S2000x256 S2000x128 S256x128 [0] [0] [1] [1] [] []
  dot_S256x128_S128x256_S256x256_1_0_0_1_n_n_wf : DotDims.WF S256x128 S128x256 S256x256 [1] [0] [0] [1] [] []
  dot_S256x256_S256x2_S256x2_1_0_0_1_n_n_wf : DotDims.WF S256x256 S256x2 S256x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x7.size a ≤ S100000x7.size a
  hwx0_0 : ∀ i : grid0.Coords, EltTy.bits .f32 = 32 ∨ (Rect.block (s := S100000x7) S2000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x7.size a ≤ S100000x7.size a
  hwx0_1 : ∀ i : grid0.Coords, EltTy.bits .f32 = 32 ∨ (Rect.block (s := S100000x7) S2000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x128.size a ≤ S7x128.size a
  hwx0_2 : ∀ i : grid0.Coords, EltTy.bits .f32 = 32 ∨ (Rect.block (s := S7x128) S7x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S100000x1.size a
  hwx3_3 : ∀ i : grid3.Coords, EltTy.bits .i32 = 32 ∨ (Rect.block (s := S100000x1) S2000x1.size (cc3_transform_3 i) (hinb3_3 i)).WholeWords (EltTy.packing .i32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x256.size a ≤ S128x256.size a
  hwx3_8 : ∀ i : grid3.Coords, EltTy.bits .f32 = 32 ∨ (Rect.block (s := S128x256) S128x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x256.size a ≤ S1x256.size a
  hwx3_9 : ∀ i : grid3.Coords, EltTy.bits .f32 = 32 ∨ (Rect.block (s := S1x256) S1x256.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x256.size a ≤ S1x256.size a
  hwx3_10 : ∀ i : grid3.Coords, EltTy.bits .f32 = 32 ∨ (Rect.block (s := S1x256) S1x256.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x256.size a ≤ S1x256.size a
  hwx3_11 : ∀ i : grid3.Coords, EltTy.bits .f32 = 32 ∨ (Rect.block (s := S1x256) S1x256.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x256.size a ≤ S1x256.size a
  hwx3_12 : ∀ i : grid3.Coords, EltTy.bits .f32 = 32 ∨ (Rect.block (s := S1x256) S1x256.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x256.size a ≤ S1x256.size a
  hwx3_13 : ∀ i : grid3.Coords, EltTy.bits .f32 = 32 ∨ (Rect.block (s := S1x256) S1x256.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S256x2.size a ≤ S256x2.size a
  hwx3_14 : ∀ i : grid3.Coords, EltTy.bits .f32 = 32 ∨ (Rect.block (s := S256x2) S256x2.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S1x2.size a ≤ S1x2.size a
  hwx3_15 : ∀ i : grid3.Coords, EltTy.bits .f32 = 32 ∨ (Rect.block (s := S1x2) S1x2.size (cc3_transform_15 i) (hinb3_15 i)).WholeWords (EltTy.packing .f32)
  hstage3_16 : ∀ j, (stage3_16 j).IsWhole
  nbuf3_16 : grid3.bufCount reads3_16 true = 1
  hreads3_16 : ∀ i i' : grid3.Coords, (∀ a, reads3_16 a = true → i a = i' a) → cc3_transform_16 i = cc3_transform_16 i'
  hinb3_16 : ∀ (i : grid3.Coords) a, (cc3_transform_16 i a + 1) * S256x2.size a ≤ S256x2.size a
  hwx3_16 : ∀ i : grid3.Coords, EltTy.bits .f32 = 32 ∨ (Rect.block (s := S256x2) S256x2.size (cc3_transform_16 i) (hinb3_16 i)).WholeWords (EltTy.packing .f32)

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S2000x7_S7x128_S2000x128_1_0_0_1_n_n : DotDims S2000x7 S7x128 S2000x128 where
  lhsContracting := [1]
  rhsContracting := [0]
  lhsNonContracting := [0]
  rhsNonContracting := [1]
  lhsBatch := []
  rhsBatch := []
  wf := dot_S2000x7_S7x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x256_S2000x128_S256x128_0_0_1_1_n_n : DotDims S2000x256 S2000x128 S256x128 where
  lhsContracting := [0]
  rhsContracting := [0]
  lhsNonContracting := [1]
  rhsNonContracting := [1]
  lhsBatch := []
  rhsBatch := []
  wf := dot_S2000x256_S2000x128_S256x128_0_0_1_1_n_n_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

abbrev win0_0 : Pipeline.Window sig grid0 :=
  Pipeline.Window.ofSpec (Memref.whole main_arg0) S2000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S7x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v16) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v43) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v44) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v45) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v46) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg18) S128x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v47) S1x256.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v48) S1x256.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v49) S1x256.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v50) S1x256.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v51) S1x256.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_arg24) S256x2.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v52) S1x2.size cc3_transform_15 reads3_15 false true 1 stage3_15 sem3_15
    hrank3 hreads3_15 hinb3_15 nbuf3_15 (Memref.isWhole_whole _) hwx3_15 hstage3_15

abbrev win3_16 : Pipeline.Window sig grid3 :=
  Pipeline.Window.ofSpec (Memref.whole main_v54) S256x2.size cc3_transform_16 reads3_16 true true 1 stage3_16 sem3_16
    hrank3 hreads3_16 hinb3_16 nbuf3_16 (Memref.isWhole_whole _) hwx3_16 hstage3_16

abbrev win3 : Fin 17 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | 16 => win3_16 | ⟨_ + 17, h⟩ => absurd h (Nat.not_lt.2 (Nat.le_add_left _ _))
abbrev spec3 : Fin 17 → Pipeline.WinSpec sig grid3.rank := fun w => (win3 w).toWinSpec

abbrev idle3 : Fin 17 → grid3.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k3_cond2 i == 1#1) | ⟨_ + 17, h⟩ => absurd h (Nat.not_lt.2 (Nat.le_add_left _ _))

class Facts : Prop extends Facts₀ where

variable [Facts]
-- ==== ReferenceIdeal.lean ====
abbrev S100000x7 : Shape := ⟨2, ![100000, 7]⟩
abbrev S2x1600000 : Shape := ⟨2, ![2, 1600000]⟩
abbrev S1600000 : Shape := ⟨1, ![1600000]⟩
abbrev S100000 : Shape := ⟨1, ![100000]⟩
abbrev S7x128 : Shape := ⟨2, ![7, 128]⟩
abbrev S128 : Shape := ⟨1, ![128]⟩
abbrev S128x128 : Shape := ⟨2, ![128, 128]⟩
abbrev S384x128 : Shape := ⟨2, ![384, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S1600000x7 : Shape := ⟨2, ![1600000, 7]⟩
abbrev S100000x128 : Shape := ⟨2, ![100000, 128]⟩
abbrev S1x128 : Shape := ⟨2, ![1, 128]⟩
abbrev S1600000x128 : Shape := ⟨2, ![1600000, 128]⟩
abbrev S100000x384 : Shape := ⟨2, ![100000, 384]⟩
abbrev S256x128 : Shape := ⟨2, ![256, 128]⟩
abbrev S100000x1 : Shape := ⟨2, ![100000, 1]⟩
abbrev S256x256 : Shape := ⟨2, ![256, 256]⟩
abbrev S1x256 : Shape := ⟨2, ![1, 256]⟩
abbrev S1x2 : Shape := ⟨2, ![1, 2]⟩

abbrev nBuf : Space → Nat
  | .hbm => 150
  | .vmem => 0
  | .smem => 0
  | _ => 0

abbrev hbmTy0_0 (i : Nat) : BufTy := match i % 128 with
  | 0 => ⟨S100000x7, .f32⟩
  | 1 => ⟨S2x1600000, .i32⟩
  | 2 => ⟨S1600000, .f32⟩
  | 3 => ⟨S100000, .i32⟩
  | 4 => ⟨S7x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x128, .f32⟩
  | 15 => ⟨S128, .f32⟩
  | 16 => ⟨S384x128, .f32⟩
  | 17 => ⟨S128, .f32⟩
  | 18 => ⟨S128x256, .f32⟩
  | 19 => ⟨S256, .f32⟩
  | 20 => ⟨S256, .f32⟩
  | 21 => ⟨S256, .f32⟩
  | 22 => ⟨S256, .f32⟩
  | 23 => ⟨S256, .f32⟩
  | 24 => ⟨S256x2, .f32⟩
  | 25 => ⟨S2, .f32⟩
  | 26 => ⟨S1x1600000, .i32⟩
  | 27 => ⟨S1600000, .i32⟩
  | 28 => ⟨S1x1600000, .i32⟩
  | 29 => ⟨S1600000, .i32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x7, .f32⟩
  | 39 => ⟨S_, .f32⟩
  | 40 => ⟨S100000x7, .f32⟩
  | 41 => ⟨S1600000x1, .i32⟩
  | 42 => ⟨S100000x7, .f32⟩
  | 43 => ⟨S100000x7, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x128, .f32⟩
  | 67 => ⟨S_, .f32⟩
  | 68 => ⟨S100000x128, .f32⟩
  | 69 => ⟨S1600000x1, .i32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S_, .f32⟩
  | 84 => ⟨S100000x128, .f32⟩
  | 85 => ⟨S100000x128, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S_, .f32⟩
  | 96 => ⟨S100000x128, .f32⟩
  | 97 => ⟨S1600000x1, .i32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x384, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S256x128, .f32⟩
  | 121 => ⟨S100000x1, .i32⟩
  | 122 => ⟨S256x128, .f32⟩
  | 123 => ⟨S256x256, .f32⟩
  | 124 => ⟨S1x256, .f32⟩
  | 125 => ⟨S256x256, .f32⟩
  | 126 => ⟨S256x256, .f32⟩
  | 127 => ⟨S1x256, .f32⟩
  | _ => ⟨S100000x7, .f32⟩

abbrev hbmTy0_1 (i : Nat) : BufTy := match i % 128 with
  | 0 => ⟨S256x256, .f32⟩
  | 1 => ⟨S256x256, .f32⟩
  | 2 => ⟨S_, .f32⟩
  | 3 => ⟨S256, .f32⟩
  | 4 => ⟨S256, .f32⟩
  | 5 => ⟨S256, .f32⟩
  | 6 => ⟨S1x256, .f32⟩
  | 7 => ⟨S256x256, .f32⟩
  | 8 => ⟨S256x256, .f32⟩
  | 9 => ⟨S1x256, .f32⟩
  | 10 => ⟨S256x256, .f32⟩
  | 11 => ⟨S256x256, .f32⟩
  | 12 => ⟨S1x256, .f32⟩
  | 13 => ⟨S256x256, .f32⟩
  | 14 => ⟨S256x256, .f32⟩
  | 15 => ⟨S_, .f32⟩
  | 16 => ⟨S256x256, .f32⟩
  | 17 => ⟨S256x256, .f32⟩
  | 18 => ⟨S256x2, .f32⟩
  | 19 => ⟨S1x2, .f32⟩
  | 20 => ⟨S256x2, .f32⟩
  | 21 => ⟨S256x2, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_c : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_call0_cst : Ref sig .tc := ⟨.hbm, 48, rfl⟩
abbrev main_call0_v0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call1_cst : Ref sig .tc := ⟨.hbm, 55, rfl⟩
abbrev main_call1_v0 : Ref sig .tc := ⟨.hbm, 56, rfl⟩
abbrev main_v24 : Ref sig .tc := ⟨.hbm, 57, rfl⟩
abbrev main_c_1 : Ref sig .tc := ⟨.hbm, 58, rfl⟩
abbrev main_v25 : Ref sig .tc := ⟨.hbm, 59, rfl⟩
abbrev main_v26 : Ref sig .tc := ⟨.hbm, 60, rfl⟩
abbrev main_c_2 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_cst_3 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_call2_cst : Ref sig .tc := ⟨.hbm, 76, rfl⟩
abbrev main_call2_v0 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_call3_cst : Ref sig .tc := ⟨.hbm, 83, rfl⟩
abbrev main_call3_v0 : Ref sig .tc := ⟨.hbm, 84, rfl⟩
abbrev main_v45 : Ref sig .tc := ⟨.hbm, 85, rfl⟩
abbrev main_c_4 : Ref sig .tc := ⟨.hbm, 86, rfl⟩
abbrev main_v46 : Ref sig .tc := ⟨.hbm, 87, rfl⟩
abbrev main_v47 : Ref sig .tc := ⟨.hbm, 88, rfl⟩
abbrev main_c_5 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_6 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_call4_cst : Ref sig .tc := ⟨.hbm, 104, rfl⟩
abbrev main_call4_v0 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_call5_cst : Ref sig .tc := ⟨.hbm, 111, rfl⟩
abbrev main_call5_v0 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_7 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_cst_8 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_call6_cst : Ref sig .tc := ⟨.hbm, 143, rfl⟩
abbrev main_call6_v0 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x7 : S_.BroadcastsInDim S100000x7 (![] : Fin 0 → Fin S100000x7.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  bcast_S_S256x128 : S_.BroadcastsInDim S256x128 (![] : Fin 0 → Fin S256x128.rank)
  bcast_S100000_S100000x1_0 : S100000.BroadcastsInDim S100000x1 (![0] : Fin 1 → Fin S100000x1.rank)
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  bcast_S_S256 : S_.BroadcastsInDim S256 (![] : Fin 0 → Fin S256.rank)
  bcast_S_S256x256 : S_.BroadcastsInDim S256x256 (![] : Fin 0 → Fin S256x256.rank)
  bcast_S2_S1x2_1 : S2.BroadcastsInDim S1x2 (![1] : Fin 1 → Fin S1x2.rank)
  bcast_S1x2_S256x2_0_1 : S1x2.BroadcastsInDim S256x2 (![0, 1] : Fin 2 → Fin S256x2.rank)
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x128_S100000x128_1_0_0_1_n_n_wf : DotDims.WF S100000x7 S7x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []
  scatter_S256x128_S100000x1_S100000x128_1_0_0_1_wf : ScatterDims.WF S256x128 S100000x1 S100000x128 [1] [0] [0] 1
  dot_S256x128_S128x256_S256x256_1_0_0_1_n_n_wf : DotDims.WF S256x128 S128x256 S256x256 [1] [0] [0] [1] [] []
  dot_S256x256_S256x2_S256x2_1_0_0_1_n_n_wf : DotDims.WF S256x256 S256x2 S256x2 [1] [0] [0] [1] [] []

variable [Facts₀]

def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S256x2_S256x2_1_0_0_1_n_n : DotDims S256x256 S256x2 S256x2 where
  lhsContracting := [1]
  rhsContracting := [0]
  lhsNonContracting := [0]
  rhsNonContracting := [1]
  lhsBatch := []
  rhsBatch := []
  wf := dot_S256x256_S256x2_S256x2_1_0_0_1_n_n_wf

class Facts : Prop extends Facts₀ where

variable [Facts]
-- ==== Proof.K.Regions.lean ====
import proofs.«428666_j20289425506393_1_alg».proof.Proof.K.Launch
import Idealize.ShloMosaic.Lib.Pipeline.Frame
import Idealize.ShloMosaic.Lib.Pipeline.Regions

noncomputable section

namespace Cert.Kernel.GenP

open Cert.Kernel.Gen
open Idealize.ShloMosaic Idealize.ShloMosaic.TcCoe

variable {F : FTy → Type} [FloatOps F]

/-- Per host stretch: none of its operations allocates, and each writes only a reference of the listed ones (each operation's one written reference is looked up in the list). -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_c_1, main_v17, main_v18, main_c_2, main_v19, main_v20, main_v21, main_v22, main_v23, main_cst_3, main_v24, main_v25, main_v26, main_v27, main_v28]
theorem hostOps1_writes : (hostOps1 : List (HloOp τ sig (Elt F))).Forall fun op => op.writes ⊆ (hostOps1_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_c_4, main_v30, main_v31, main_c_5, main_v32, main_v33, main_v34, main_v35, main_v36, main_cst_6, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps3_fresh : (hostOps3 : List (HloOp τ sig (Elt F))).Forall fun op => op.fresh = ∅ := by
  simp only [List.Forall]; repeat' constructor
abbrev hostOps3_W : List (Ref sig .tc) := [main_v43, main_v44, main_v45, main_v46, main_v47, main_v48, main_v49, main_v50, main_v51, main_v52, main_v53]
theorem hostOps3_writes : (hostOps3 : List (HloOp τ sig (Elt F))).Forall fun op => op.writes ⊆ (hostOps3_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

/-- No region of this program takes a table operand. -/
abbrev adm : (p : Fin 4) → (pcfgs (F := F) p).Adm := fun p => (cfgs p).toPCfg_adm

end Cert.Kernel.GenP

end
-- ==== Proof.K.RegA0.lean ====
import proofs.«428666_j20289425506393_1_alg».proof.Proof.K.Launch
import proofs.«428666_j20289425506393_1_alg».proof.Proof.Gen.Kernel.Skeleton
import proofs.«428666_j20289425506393_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x7 := Rect.unit (s := S2000x7) ![0, 0] S2000x7.size inb_S2000x7_S2000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S2000x128 := Rect.unit (s := S2000x128) ![0, 0] S2000x128.size inb_S2000x128_S2000x128_0_0

/-- The output block the body leaves: its one whole-block store of the layer's payload of the six whole-block loads. -/
def out0_6 (x0 x1 : Vec F S2000x7 .f32) (x2 : Vec F S7x128 .f32) (x3 : Vec F S1x128 .f32) (x4 : Vec F S128x128 .f32) (x5 : Vec F S1x128 .f32) : Vec F S2000x128 .f32 :=
  View.canon [⟨r0_4, k0_pay1 (View.ld x0 r0_0) (View.ld x1 r0_0) (View.ld x2 r0_1) (View.ld x3 r0_2) (View.ld x4 r0_3) (View.ld x5 r0_2)⟩]

theorem hz0 : (![0, 0] : Fin 2 → ℕ) = fun _ => 0 := by funext a; fin_cases a <;> rfl

/-- Every access is of a whole block at offset zero, so the stored block is the payload of the loaded blocks. -/
theorem out0_6_eq (x0 x1 : Vec F S2000x7 .f32) (x2 : Vec F S7x128 .f32) (x3 : Vec F S1x128 .f32) (x4 : Vec F S128x128 .f32) (x5 : Vec F S1x128 .f32) :
    out0_6 x0 x1 x2 x3 x4 x5 = k0_pay1 x0 x1 x2 x3 x4 x5 := by
  unfold out0_6
  rw [View.canon_unit_zero (S := S2000x128) hz0]
  simp only [View.ld_unit_zero (S := S2000x7) hz0, View.ld_unit_zero (S := S7x128) hz0, View.ld_unit_zero (S := S1x128) hz0,
    View.ld_unit_zero (S := S128x128) hz0]

theorem cover0_6 (p0 : Vec F S2000x128 .f32) (y : S2000x128.Idx) :
    ∃ pc ∈ ([⟨r0_4, p0⟩] : List (View.Piece (Elt F) S2000x128 .f32)), y ∈ pc.1.set :=
  View.cover_of_tiled [⟨r0_4, p0⟩] S2000x128.size (by rfl) y

/-- The body, run on whole blocks holding `x0 … x5` and any output block, keeps the inputs and leaves `out0_6` of them. -/
theorem sound_kernel0 (c : Dev nD) (E : Set ℕ) (i : grid0.Coords)
    (arg1 : Memref sig .tc .vmem S2000x7 .f32) (harg1 : arg1.IsWhole) (arg2 : Memref sig .tc .vmem S2000x7 .f32) (harg2 : arg2.IsWhole)
    (arg3 : Memref sig .tc .vmem S7x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x7 .f32) (x2 : Vec F S7x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- On core `c`: the arrays as in `V`; after point `t` each input block unchanged and the output block `out0_6` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Before the body at any point every input window holds its own block: the body leaves it as it found it. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point is `sound_kernel0` at the point's input blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.RegA1.lean ====
import proofs.«428666_j20289425506393_1_alg».proof.Proof.K.Launch
import proofs.«428666_j20289425506393_1_alg».proof.Proof.Gen.Kernel.Skeleton
import proofs.«428666_j20289425506393_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S2000x128 := Rect.unit (s := S2000x128) ![0, 0] S2000x128.size inb_S2000x128_S2000x128_0_0

/-- The output block the body leaves: its one whole-block store of the layer's payload of the six whole-block loads. -/
def out1_6 (x0 x1 : Vec F S2000x128 .f32) (x2 : Vec F S128x128 .f32) (x3 : Vec F S1x128 .f32) (x4 : Vec F S128x128 .f32) (x5 : Vec F S1x128 .f32) : Vec F S2000x128 .f32 :=
  View.canon [⟨r1_4, k1_pay1 (View.ld x0 r1_0) (View.ld x1 r1_0) (View.ld x2 r1_1) (View.ld x3 r1_2) (View.ld x4 r1_3) (View.ld x5 r1_2)⟩]

theorem hz1 : (![0, 0] : Fin 2 → ℕ) = fun _ => 0 := by funext a; fin_cases a <;> rfl

/-- Every access is of a whole block at offset zero, so the stored block is the payload of the loaded blocks. -/
theorem out1_6_eq (x0 x1 : Vec F S2000x128 .f32) (x2 : Vec F S128x128 .f32) (x3 : Vec F S1x128 .f32) (x4 : Vec F S128x128 .f32) (x5 : Vec F S1x128 .f32) :
    out1_6 x0 x1 x2 x3 x4 x5 = k1_pay1 x0 x1 x2 x3 x4 x5 := by
  unfold out1_6
  rw [View.canon_unit_zero (S := S2000x128) hz1]
  simp only [View.ld_unit_zero (S := S2000x128) hz1, View.ld_unit_zero (S := S128x128) hz1, View.ld_unit_zero (S := S1x128) hz1,
    View.ld_unit_zero (S := S128x128) hz1]

theorem cover1_6 (p0 : Vec F S2000x128 .f32) (y : S2000x128.Idx) :
    ∃ pc ∈ ([⟨r1_4, p0⟩] : List (View.Piece (Elt F) S2000x128 .f32)), y ∈ pc.1.set :=
  View.cover_of_tiled [⟨r1_4, p0⟩] S2000x128.size (by rfl) y

/-- The body, run on whole blocks holding `x0 … x5` and any output block, keeps the inputs and leaves `out1_6` of them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1_6 _)

/-- On core `c`: the arrays as in `V`; after point `t` each input block unchanged and the output block `out1_6` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Before the body at any point every input window holds its own block: the body leaves it as it found it. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point is `sound_kernel1` at the point's input blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.RegA2.lean ====
import proofs.«428666_j20289425506393_1_alg».proof.Proof.K.Launch
import proofs.«428666_j20289425506393_1_alg».proof.Proof.Gen.Kernel.Skeleton
import proofs.«428666_j20289425506393_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0
abbrev r2_4 : Rect S2000x128 := Rect.unit (s := S2000x128) ![0, 0] S2000x128.size inb_S2000x128_S2000x128_0_0

/-- The output block the body leaves: its one whole-block store of the layer's payload of the six whole-block loads. -/
def out2_6 (x0 x1 : Vec F S2000x128 .f32) (x2 : Vec F S128x128 .f32) (x3 : Vec F S1x128 .f32) (x4 : Vec F S128x128 .f32) (x5 : Vec F S1x128 .f32) : Vec F S2000x128 .f32 :=
  View.canon [⟨r2_4, k2_pay1 (View.ld x0 r2_0) (View.ld x1 r2_0) (View.ld x2 r2_1) (View.ld x3 r2_2) (View.ld x4 r2_3) (View.ld x5 r2_2)⟩]

theorem hz2 : (![0, 0] : Fin 2 → ℕ) = fun _ => 0 := by funext a; fin_cases a <;> rfl

/-- Every access is of a whole block at offset zero, so the stored block is the payload of the loaded blocks. -/
theorem out2_6_eq (x0 x1 : Vec F S2000x128 .f32) (x2 : Vec F S128x128 .f32) (x3 : Vec F S1x128 .f32) (x4 : Vec F S128x128 .f32) (x5 : Vec F S1x128 .f32) :
    out2_6 x0 x1 x2 x3 x4 x5 = k2_pay1 x0 x1 x2 x3 x4 x5 := by
  unfold out2_6
  rw [View.canon_unit_zero (S := S2000x128) hz2]
  simp only [View.ld_unit_zero (S := S2000x128) hz2, View.ld_unit_zero (S := S128x128) hz2, View.ld_unit_zero (S := S1x128) hz2,
    View.ld_unit_zero (S := S128x128) hz2]

theorem cover2_6 (p0 : Vec F S2000x128 .f32) (y : S2000x128.Idx) :
    ∃ pc ∈ ([⟨r2_4, p0⟩] : List (View.Piece (Elt F) S2000x128 .f32)), y ∈ pc.1.set :=
  View.cover_of_tiled [⟨r2_4, p0⟩] S2000x128.size (by rfl) y

/-- The body, run on whole blocks holding `x0 … x5` and any output block, keeps the inputs and leaves `out2_6` of them. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- On core `c`: the arrays as in `V`; after point `t` each input block unchanged and the output block `out2_6` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Before the body at any point every input window holds its own block: the body leaves it as it found it. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point is `sound_kernel2` at the point's input blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.Reg3Defs.lean ====
import proofs.«428666_j20289425506393_1_alg».proof.Proof.Gen.Kernel.Skeleton

noncomputable section

namespace Cert.Kernel.Fr

open Cert.Kernel Cert.Kernel.Gen
open Idealize.ShloMosaic

variable {F : FTy → Type} [FloatOps F]

/-- The per-graph sums before the first point. -/
def zero3 : Vec F S256x128 .f32 := k3_pay3

/-- The sums after one point, from the sums before it. -/
def step3 (x0 x1 x2 : Vec F S2000x128 .f32) (x3 : Vec F S2000x1 .i32) (x4 x5 x6 : Vec F S128x128 .f32) (x7 : Vec F S1x128 .f32)
    (acc : Vec F S256x128 .f32) : Vec F S256x128 .f32 :=
  k3_pay1 (k3_pay4 x0 x1 x2 x4 x5 x6 x7) (k3_pay5 x3) acc

/-- The classifier's value on the finished sums. -/
def fin3 (acc : Vec F S256x128 .f32) (x8 : Vec F S128x256 .f32) (x9 x10 x11 x12 x13 : Vec F S1x256 .f32) (x14 : Vec F S256x2 .f32)
    (x15 : Vec F S1x2 .f32) : Vec F S256x2 .f32 :=
  k3_pay2 acc x8 x9 x12 x13 x10 x11 x14 x15

end Cert.Kernel.Fr

end
-- ==== Proof.K.Reg3.lean ====
import proofs.«428666_j20289425506393_1_alg».proof.Proof.K.Launch
import proofs.«428666_j20289425506393_1_alg».proof.Proof.K.Reg3Defs
import proofs.«428666_j20289425506393_1_alg».proof.Proof.Gen.Kernel.Skeleton
import proofs.«428666_j20289425506393_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Pipeline.TableIdle
import Idealize.ShloMosaic.Lib.Pipeline.RegionsLoop
import Idealize.ShloMosaic.Lib.Ring
import Idealize.ShloMosaic.Lib.Tactic

noncomputable section

namespace Cert.Kernel.Fr

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conds

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 49 :=
  (by decide +kernel : ∀ t : Fin grid3.N, cond3_1 (grid3.coords t) ↔ t.val = 49)

theorem liveAt3 : ∀ (w : Fin cfg3.W) (t : Fin cfg3.N), w.val < 16 → cfg3.idle w (grid3.coords t) = false := by decide +kernel
theorem idleAt3_16 : ∀ t : Fin cfg3.N, t.val ≠ 49 → cfg3.idle 16 (grid3.coords t) = true ∧ (cfg3.win 16).flush t = false := by decide +kernel
theorem liveAt3_16 : ∀ t : Fin cfg3.N, t.val = 49 → cfg3.idle 16 (grid3.coords t) = false := by decide +kernel

abbrev ms3_0 (t : Fin cfg3.N) := win3_0.stage (cfg3.slots t 0)
abbrev ms3_1 (t : Fin cfg3.N) := win3_1.stage (cfg3.slots t 1)
abbrev ms3_2 (t : Fin cfg3.N) := win3_2.stage (cfg3.slots t 2)
abbrev ms3_3 (t : Fin cfg3.N) := win3_3.stage (cfg3.slots t 3)
abbrev ms3_4 (t : Fin cfg3.N) := win3_4.stage (cfg3.slots t 4)
abbrev ms3_5 (t : Fin cfg3.N) := win3_5.stage (cfg3.slots t 5)
abbrev ms3_6 (t : Fin cfg3.N) := win3_6.stage (cfg3.slots t 6)
abbrev ms3_7 (t : Fin cfg3.N) := win3_7.stage (cfg3.slots t 7)
abbrev ms3_8 (t : Fin cfg3.N) := win3_8.stage (cfg3.slots t 8)
abbrev ms3_9 (t : Fin cfg3.N) := win3_9.stage (cfg3.slots t 9)
abbrev ms3_10 (t : Fin cfg3.N) := win3_10.stage (cfg3.slots t 10)
abbrev ms3_11 (t : Fin cfg3.N) := win3_11.stage (cfg3.slots t 11)
abbrev ms3_12 (t : Fin cfg3.N) := win3_12.stage (cfg3.slots t 12)
abbrev ms3_13 (t : Fin cfg3.N) := win3_13.stage (cfg3.slots t 13)
abbrev ms3_14 (t : Fin cfg3.N) := win3_14.stage (cfg3.slots t 14)
abbrev ms3_15 (t : Fin cfg3.N) := win3_15.stage (cfg3.slots t 15)
abbrev ms3_16 (t : Fin cfg3.N) := win3_16.stage (cfg3.slots t 16)
abbrev scM3_0 : Memref sig .tc .vmem S256x128 .f32 := Memref.whole cc3_scratch0

/-- The region's resources around the per-graph sums, the sums themselves held as `P`. -/
def inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = inv3 c iprop(∃ d, owns c.tc scM3_0 fullShare d) := by
  unfold Pipeline.ΦA inv3; rw [scopedRest3_split]; simp only [scM3_0, owns_whole]; try rfl

end Conds

section Runs

theorem hz3 : (![0, 0] : Fin 2 → Nat) = fun _ => 0 := funext fun a => by fin_cases a <;> rfl

theorem owns_eq_unread {sp : Space} {s : Shape} {e : EltTy} {m : Memref sig .tc sp s e} (h : m.IsWhole) (c : Dev nD) (X : s.Idx → Elt F e) :
    (owns c.tc m fullShare X : sProp 𝕄) = (m.view.loc c.tc ↦[m.view.set]{fullShare} h.unread X) := by
  rw [owns_eq_rep, h.eq_unread (View.read_rep _ _)]

variable (c : Dev nD) (i : grid3.Coords) (arg1 arg2 arg3 : Memref sig .tc .vmem S2000x128 .f32) (arg4 : Memref sig .tc .vmem S2000x1 .i32) (arg5 arg6 arg7 : Memref sig .tc .vmem S128x128 .f32) (arg8 : Memref sig .tc .vmem S1x128 .f32) (arg9 : Memref sig .tc .vmem S128x256 .f32) (arg10 arg11 arg12 arg13 arg14 : Memref sig .tc .vmem S1x256 .f32) (arg15 : Memref sig .tc .vmem S256x2 .f32) (arg16 : Memref sig .tc .vmem S1x2 .f32) (arg17 : Memref sig .tc .vmem S256x2 .f32) (arg18 : Memref sig .tc .vmem S256x128 .f32)
  (x0 x1 x2 : Vec F S2000x128 .f32) (x3 : Vec F S2000x1 .i32) (x4 x5 x6 : Vec F S128x128 .f32) (x7 : Vec F S1x128 .f32) (x8 : Vec F S128x256 .f32) (x9 x10 x11 x12 x13 : Vec F S1x256 .f32) (x14 : Vec F S256x2 .f32) (x15 : Vec F S1x2 .f32)

/-- The sixteen operands at their values. -/
def ins3 : sProp 𝕄 :=
  iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ owns c.tc arg13 fullShare x12 ∗ owns c.tc arg14 fullShare x13 ∗ owns c.tc arg15 fullShare x14 ∗ owns c.tc arg16 fullShare x15)

variable {i} {arg1 arg2 arg3 arg4 arg5 arg6 arg7 arg8 arg9 arg10 arg11 arg12 arg13 arg14 arg15 arg16 arg17 arg18} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {x0 x1 x2 x3 x4 x5 x6 x7 x8 x9 x10 x11 x12 x13 x14 x15}

/-- At the first point the sums end one step from zero, whatever they were. -/
theorem run3_A (hc0 : cond3_0 i) (hc1 : ¬cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare (step3 x0 x1 x2 x3 x4 x5 x6 x7 zero3)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg17]
  unfold owns
  iintro ⟨⟨H0, H1, H2, H3, H4, H5, H6, H7, H8, H9, H10, H11, H12, H13, H14, H15⟩, H16, ⟨%fs0, -, HS0⟩, Hk⟩
  sl_exec (disch := first | exact hc0 | exact hc1)
  sl_step
  iapply Hk
  iframe H0 H1 H2 H3 H4 H5 H6 H7 H8 H9 H10 H11 H12 H13 H14 H15 H16
  iexists _; isplitr; swap; · iexact HS0
  ipureintro
  refine (View.read_writes_eq_canon _ _ _ ?_).trans ?_
  · exact View.cover_of_tiledL _ S256x128.size (by sl_kernel_rfl)
  sl_unfold_words
  rw [View.canon_cons_unit_zero (S := S256x128) hz3, View.readCov_unit_zero (S := S256x128) _ hz3]
  unfold step3 zero3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

/-- At a middle point the sums end one step from what they were. -/
theorem run3_B (hc0 : ¬cond3_0 i) (hc1 : ¬cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare (step3 x0 x1 x2 x3 x4 x5 x6 x7 xa)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg17, owns_eq_unread harg18 c xa]
  iintro ⟨⟨H0, H1, H2, H3, H4, H5, H6, H7, H8, H9, H10, H11, H12, H13, H14, H15⟩, H16, HS0, Hk⟩
  sl_exec (disch := first | exact hc0 | exact hc1)
  sl_step
  iapply Hk
  iframe H0 H1 H2 H3 H4 H5 H6 H7 H8 H9 H10 H11 H12 H13 H14 H15 H16
  unfold owns
  iexists _; isplitr; swap; · iexact HS0
  ipureintro
  refine (View.read_writes_eq_canon _ _ _ ?_).trans ?_
  · exact View.cover_of_tiledL _ S256x128.size (by sl_kernel_rfl)
  sl_unfold_words
  rw [View.canon_unit_zero hz3]
  unfold step3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

/-- At the last point the sums end one step from what they were, and the output is the classifier's value on them. -/
theorem run3_C (hc0 : ¬cond3_0 i) (hc1 : cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare (fin3 (step3 x0 x1 x2 x3 x4 x5 x6 x7 xa) x8 x9 x10 x11 x12 x13 x14 x15) ∗ owns c.tc arg18 fullShare (step3 x0 x1 x2 x3 x4 x5 x6 x7 xa)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton, k3_part1_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg18 c xa]
  unfold owns
  iintro ⟨⟨H0, H1, H2, H3, H4, H5, H6, H7, H8, H9, H10, H11, H12, H13, H14, H15⟩, ⟨%f16, -, H16⟩, HS0, Hk⟩
  sl_exec (disch := first | exact hc0 | exact hc1)
  sl_step
  iapply Hk
  iframe H0 H1 H2 H3 H4 H5 H6 H7 H8 H9 H10 H11 H12 H13 H14 H15
  isplitl [H16]
  · iexists _; isplitr; swap; · iexact H16
    ipureintro
    refine (View.read_writes_eq_canon _ _ _ ?_).trans ?_
    · exact View.cover_of_tiledL _ S256x2.size (by sl_kernel_rfl)
    sl_unfold_words
    rw [View.canon_unit_zero hz3]
    unfold fin3 step3
    simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S128x256) hz3, View.ld_unit_zero (S := S1x256) hz3, View.ld_unit_zero (S := S256x2) hz3, View.ld_unit_zero (S := S1x2) hz3, View.ld_unit_zero (S := S256x128) hz3, View.readCov_unit_zero (S := S256x128) _ hz3]
  iexists _; isplitr; swap; · iexact HS0
  ipureintro
  refine (View.read_writes_eq_canon _ _ _ ?_).trans ?_
  · exact View.cover_of_tiledL _ S256x128.size (by sl_kernel_rfl)
  sl_unfold_words
  rw [View.canon_unit_zero hz3]
  unfold step3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

end Runs

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block and the per-graph sums after point `n`: the sums one step from the point before's (from zero at the first), the block the classifier's value on them. -/
def outsAt3 (c : Dev nD) : (n : ℕ) → n < cfg3.N → Vec F S256x2 .f32 × Vec F S256x128 .f32
  | n, h =>
    let a := step3 (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) (iblk3 V c 6 ⟨n, h⟩) (iblk3 V c 7 ⟨n, h⟩) (match n, h with
      | 0, _ => zero3
      | m + 1, h => (outsAt3 c m (Nat.lt_of_succ_lt h)).2)
    (fin3 a (iblk3 V c 8 ⟨n, h⟩) (iblk3 V c 9 ⟨n, h⟩) (iblk3 V c 10 ⟨n, h⟩) (iblk3 V c 11 ⟨n, h⟩) (iblk3 V c 12 ⟨n, h⟩) (iblk3 V c 13 ⟨n, h⟩) (iblk3 V c 14 ⟨n, h⟩) (iblk3 V c 15 ⟨n, h⟩), a)

theorem outsAt3_scratch_zero (c : Dev nD) (h : 0 < cfg3.N) :
    (outsAt3 V c 0 h).2 = step3 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩) (iblk3 V c 7 ⟨0, h⟩) zero3 := rfl

theorem outsAt3_scratch_succ (c : Dev nD) (n : ℕ) (h : n + 1 < cfg3.N) :
    (outsAt3 V c (n + 1) h).2 = step3 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (iblk3 V c 7 ⟨n + 1, h⟩) ((outsAt3 V c n (Nat.lt_of_succ_lt h)).2) := rfl

theorem outsAt3_out (c : Dev nD) (n : ℕ) (h : n < cfg3.N) :
    (outsAt3 V c n h).1 = fin3 ((outsAt3 V c n h).2) (iblk3 V c 8 ⟨n, h⟩) (iblk3 V c 9 ⟨n, h⟩) (iblk3 V c 10 ⟨n, h⟩) (iblk3 V c 11 ⟨n, h⟩) (iblk3 V c 12 ⟨n, h⟩) (iblk3 V c 13 ⟨n, h⟩) (iblk3 V c 14 ⟨n, h⟩) (iblk3 V c 15 ⟨n, h⟩) := by cases n <;> rfl

theorem outsAt3_out_last (c : Dev nD) (h : 49 < cfg3.N) :
    (outsAt3 V c 49 h).1 = fin3 ((outsAt3 V c 49 h).2) (iblk3 V c 8 ⟨49, h⟩) (iblk3 V c 9 ⟨49, h⟩) (iblk3 V c 10 ⟨49, h⟩) (iblk3 V c 11 ⟨49, h⟩) (iblk3 V c 12 ⟨49, h⟩) (iblk3 V c 13 ⟨49, h⟩) (iblk3 V c 14 ⟨49, h⟩) (iblk3 V c 15 ⟨49, h⟩) := outsAt3_out V c 49 h

def PhiS3 (c : Dev nD) : (n : ℕ) → n ≤ cfg3.N → sProp 𝕄
  | 0, _ => Pipeline.ΦA spec3 c
  | n + 1, hn => inv3 c (owns c.tc scM3_0 fullShare (outsAt3 V c n hn).2)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => (outsAt3 V c t.val t.isLt).1
    | ⟨_ + 17, h⟩ => absurd h (Nat.not_lt.2 (Nat.le_add_left _ _))
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_16 (c : Dev nD) (t : Fin cfg3.N) : (dat3 V c).after 16 t = (outsAt3 V c t.val t.isLt).1 := rfl
theorem dat3_share (c : Dev nD) (w : Fin cfg3.W) : (dat3 V c).q w = fullShare := rfl
theorem dat3_owed (c : Dev nD) (t : Fin (cfg3.N + 1)) : (dat3 V c).owed t = 0 := rfl
theorem dat3_recorded (c : Dev nD) (t : Fin (cfg3.N + 1)) : (dat3 V c).recorded t = Set.univ := rfl

variable (c : Dev nD) (t : Fin cfg3.N)

/-- An input's block at a point is its array's block there. -/
theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl
theorem before3_3 (d) : (dat3 V c).before 3 t d = iblk3 V c 3 t :=
  ((dat3 V c).before_in_eq_fetched 3 rfl (fun _ => rfl) (fun _ _ _ => rfl) (fun _ => rfl) t d).trans rfl
theorem before3_4 (d) : (dat3 V c).before 4 t d = iblk3 V c 4 t :=
  ((dat3 V c).before_in_eq_fetched 4 rfl (fun _ => rfl) (fun _ _ _ => rfl) (fun _ => rfl) t d).trans rfl
theorem before3_5 (d) : (dat3 V c).before 5 t d = iblk3 V c 5 t :=
  ((dat3 V c).before_in_eq_fetched 5 rfl (fun _ => rfl) (fun _ _ _ => rfl) (fun _ => rfl) t d).trans rfl
theorem before3_6 (d) : (dat3 V c).before 6 t d = iblk3 V c 6 t :=
  ((dat3 V c).before_in_eq_fetched 6 rfl (fun _ => rfl) (fun _ _ _ => rfl) (fun _ => rfl) t d).trans rfl
theorem before3_7 (d) : (dat3 V c).before 7 t d = iblk3 V c 7 t :=
  ((dat3 V c).before_in_eq_fetched 7 rfl (fun _ => rfl) (fun _ _ _ => rfl) (fun _ => rfl) t d).trans rfl
theorem before3_8 (d) : (dat3 V c).before 8 t d = iblk3 V c 8 t :=
  ((dat3 V c).before_in_eq_fetched 8 rfl (fun _ => rfl) (fun _ _ _ => rfl) (fun _ => rfl) t d).trans rfl
theorem before3_9 (d) : (dat3 V c).before 9 t d = iblk3 V c 9 t :=
  ((dat3 V c).before_in_eq_fetched 9 rfl (fun _ => rfl) (fun _ _ _ => rfl) (fun _ => rfl) t d).trans rfl
theorem before3_10 (d) : (dat3 V c).before 10 t d = iblk3 V c 10 t :=
  ((dat3 V c).before_in_eq_fetched 10 rfl (fun _ => rfl) (fun _ _ _ => rfl) (fun _ => rfl) t d).trans rfl
theorem before3_11 (d) : (dat3 V c).before 11 t d = iblk3 V c 11 t :=
  ((dat3 V c).before_in_eq_fetched 11 rfl (fun _ => rfl) (fun _ _ _ => rfl) (fun _ => rfl) t d).trans rfl
theorem before3_12 (d) : (dat3 V c).before 12 t d = iblk3 V c 12 t :=
  ((dat3 V c).before_in_eq_fetched 12 rfl (fun _ => rfl) (fun _ _ _ => rfl) (fun _ => rfl) t d).trans rfl
theorem before3_13 (d) : (dat3 V c).before 13 t d = iblk3 V c 13 t :=
  ((dat3 V c).before_in_eq_fetched 13 rfl (fun _ => rfl) (fun _ _ _ => rfl) (fun _ => rfl) t d).trans rfl
theorem before3_14 (d) : (dat3 V c).before 14 t d = iblk3 V c 14 t :=
  ((dat3 V c).before_in_eq_fetched 14 rfl (fun _ => rfl) (fun _ _ _ => rfl) (fun _ => rfl) t d).trans rfl
theorem before3_15 (d) : (dat3 V c).before 15 t d = iblk3 V c 15 t :=
  ((dat3 V c).before_in_eq_fetched 15 rfl (fun _ => rfl) (fun _ _ _ => rfl) (fun _ => rfl) t d).trans rfl

def bodyPre3 : sProp 𝕄 :=
  iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d))
    ∗ (∃ d, owns c.tc (ms3_3 t) fullShare ((dat3 V c).before 3 t d))
    ∗ (∃ d, owns c.tc (ms3_4 t) fullShare ((dat3 V c).before 4 t d))
    ∗ (∃ d, owns c.tc (ms3_5 t) fullShare ((dat3 V c).before 5 t d))
    ∗ (∃ d, owns c.tc (ms3_6 t) fullShare ((dat3 V c).before 6 t d))
    ∗ (∃ d, owns c.tc (ms3_7 t) fullShare ((dat3 V c).before 7 t d))
    ∗ (∃ d, owns c.tc (ms3_8 t) fullShare ((dat3 V c).before 8 t d))
    ∗ (∃ d, owns c.tc (ms3_9 t) fullShare ((dat3 V c).before 9 t d))
    ∗ (∃ d, owns c.tc (ms3_10 t) fullShare ((dat3 V c).before 10 t d))
    ∗ (∃ d, owns c.tc (ms3_11 t) fullShare ((dat3 V c).before 11 t d))
    ∗ (∃ d, owns c.tc (ms3_12 t) fullShare ((dat3 V c).before 12 t d))
    ∗ (∃ d, owns c.tc (ms3_13 t) fullShare ((dat3 V c).before 13 t d))
    ∗ (∃ d, owns c.tc (ms3_14 t) fullShare ((dat3 V c).before 14 t d))
    ∗ (∃ d, owns c.tc (ms3_15 t) fullShare ((dat3 V c).before 15 t d))
    ∗ (∃ d, owns c.tc (ms3_16 t) fullShare ((dat3 V c).before 16 t d)))

def bodyPost3 : sProp 𝕄 :=
  iprop((dat3 V c).Φ t.succ ∗ (dat3 V c).owesAt () t.succ
    ∗ owns c.tc (ms3_0 t) fullShare (iblk3 V c 0 t)
    ∗ owns c.tc (ms3_1 t) fullShare (iblk3 V c 1 t)
    ∗ owns c.tc (ms3_2 t) fullShare (iblk3 V c 2 t)
    ∗ owns c.tc (ms3_3 t) fullShare (iblk3 V c 3 t)
    ∗ owns c.tc (ms3_4 t) fullShare (iblk3 V c 4 t)
    ∗ owns c.tc (ms3_5 t) fullShare (iblk3 V c 5 t)
    ∗ owns c.tc (ms3_6 t) fullShare (iblk3 V c 6 t)
    ∗ owns c.tc (ms3_7 t) fullShare (iblk3 V c 7 t)
    ∗ owns c.tc (ms3_8 t) fullShare (iblk3 V c 8 t)
    ∗ owns c.tc (ms3_9 t) fullShare (iblk3 V c 9 t)
    ∗ owns c.tc (ms3_10 t) fullShare (iblk3 V c 10 t)
    ∗ owns c.tc (ms3_11 t) fullShare (iblk3 V c 11 t)
    ∗ owns c.tc (ms3_12 t) fullShare (iblk3 V c 12 t)
    ∗ owns c.tc (ms3_13 t) fullShare (iblk3 V c 13 t)
    ∗ owns c.tc (ms3_14 t) fullShare (iblk3 V c 14 t)
    ∗ owns c.tc (ms3_15 t) fullShare (iblk3 V c 15 t)
    ∗ (dat3 V c).leavesExact 16 t)

theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15]
  rw [show (dat3 V c).owesAt () t.succ = (dat3 V c).owesAt () t.castSucc from rfl]
  obtain ⟨n, hn⟩ := t
  rcases n with _ | n
  · rw [Dat.leavesExact_idle _ 16 _ (idleAt3_16 _ (by decide : (0 : ℕ) ≠ 49)).1 (idleAt3_16 _ (by decide : (0 : ℕ) ≠ 49)).2,
      show (dat3 V c).Φ (Fin.castSucc ⟨0, hn⟩) = _ from PhiA3_eq c,
      show (dat3 V c).Φ (Fin.succ ⟨0, hn⟩) = inv3 c (owns c.tc scM3_0 fullShare (outsAt3 V c 0 hn).2) from rfl, outsAt3_scratch_zero]
    unfold inv3
    iintro ⟨⟨⟨⟨%ds0, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply run3_A c ((hcond3_0 ⟨0, hn⟩).mpr rfl) (fun h => absurd ((hcond3_1 ⟨0, hn⟩).mp h) (by decide : (0 : ℕ) ≠ 49)) _ _ _ _
    unfold ins3
    iframe
    iintro ⟨⟨H0, H1, H2, H3, H4, H5, H6, H7, H8, H9, H10, H11, H12, H13, H14, H15⟩, H16, HS0⟩
    iframe
    iexists _; iexact H16
  · have h0 : ¬cond3_0 (grid3.coords ⟨n + 1, hn⟩) := fun h => absurd ((hcond3_0 _).mp h) (Nat.succ_ne_zero n)
    rw [show (dat3 V c).Φ (Fin.castSucc ⟨n + 1, hn⟩) = inv3 c (owns c.tc scM3_0 fullShare (outsAt3 V c n (Nat.lt_of_succ_lt hn)).2) from rfl,
      show (dat3 V c).Φ (Fin.succ ⟨n + 1, hn⟩) = inv3 c (owns c.tc scM3_0 fullShare (outsAt3 V c (n + 1) hn).2) from rfl, outsAt3_scratch_succ]
    unfold inv3
    by_cases h1 : n + 1 = 49
    · rw [show (dat3 V c).leavesExact 16 ⟨n + 1, hn⟩ = owns c.tc (ms3_16 ⟨n + 1, hn⟩) fullShare ((dat3 V c).after 16 ⟨n + 1, hn⟩) from by
        unfold Dat.leavesExact; rw [liveAt3_16 _ h1], after3_16, outsAt3_out, outsAt3_scratch_succ]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply run3_C c h0 ((hcond3_1 ⟨n + 1, hn⟩).mpr h1) _ _ _ _
      unfold ins3
      iframe
      iintro ⟨⟨H0, H1, H2, H3, H4, H5, H6, H7, H8, H9, H10, H11, H12, H13, H14, H15⟩, H16, HS0⟩
      iframe
    · rw [Dat.leavesExact_idle _ 16 _ (idleAt3_16 _ h1).1 (idleAt3_16 _ h1).2]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply run3_B c h0 (fun h => h1 ((hcond3_1 ⟨n + 1, hn⟩).mp h)) _ _ _ _
      unfold ins3
      iframe
      iintro ⟨⟨H0, H1, H2, H3, H4, H5, H6, H7, H8, H9, H10, H11, H12, H13, H14, H15⟩, H16, HS0⟩
      iframe
      iexists _; iexact H16

theorem body_obligation3 (c : Dev nD) : BodyObligation (dat3 (F := F) V c) (defs₀ (F := F)) Variants.none () Set.univ := fun t => by
  rw [bigSep_W3, bigSep_W3]
  simp (disch := decide) only [Dat.leavesExact, liveAt3]
  exact sound_body3 V c t

theorem hin3 (c : Dev nD) : Pipeline.ΦA spec3 c ⊢ (dat3 V c).Φ 0 := Entails.refl _

theorem hout3 (c : Dev nD) : (dat3 V c).Φ (Fin.last cfg3.N) ⊢ Pipeline.ΦA spec3 c := by
  rw [show (dat3 V c).Φ (Fin.last cfg3.N) = inv3 c (owns c.tc scM3_0 fullShare (outsAt3 V c 49 (by decide)).2) from rfl, PhiA3_eq]
  unfold inv3
  iintro ⟨⟨HS0, HR⟩, Hg⟩
  iframe HR Hg
  iexists _; iexact HS0

end Regions

end Cert.Kernel.Fr

end
-- ==== Proof.K.Run.lean ====
import proofs.«428666_j20289425506393_1_alg».proof.Proof.K.Regions
import proofs.«428666_j20289425506393_1_alg».proof.Proof.K.RegA0
import proofs.«428666_j20289425506393_1_alg».proof.Proof.K.RegA1
import proofs.«428666_j20289425506393_1_alg».proof.Proof.K.RegA2
import proofs.«428666_j20289425506393_1_alg».proof.Proof.K.Reg3
import Idealize.ShloMosaic.Lib.Pipeline.RegionsLoop
import Idealize.ShloMosaic.Lib.Pipeline.FrameSuffix

noncomputable section

namespace Cert.Kernel.Fr

open Cert.Kernel.Gen Cert.Kernel.GenP
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {cfg : Cfg sig Λ₀} (W : Dev nD → Valuation τ sig (Elt F)) (d : (c : Dev nD) → Dat τ (Elt F) Unit ℕ (UR sig nD τ) ℕ cfg c)
  (hi : Function.Injective (arrRef cfg.spec)) (c : Dev nD)

/-- The valuation at a region's exit, from the one at its entry. -/
abbrev upd : Valuation τ sig (Elt F) := withArrays cfg.spec c (W c) fun w => (d c).arrAt w cfg.N

include hi in
theorem upd_arr (w : Fin cfg.W) : upd W d c (Proc.devRef .tc (arrRef cfg.spec w)) = (d c).arrAt w cfg.N :=
  withArrays_arr _ hi c _ _ w

include hi in
/-- Only the output array `o` changes: an input window's `arrAt` is its `A`, which is read off `W`. -/
theorem upd_keep (hA : ∀ c w, (d c).A w = W c (arrRef cfg.spec w)) (o : Ref sig .tc)
    (ho : ∀ w, arrRef cfg.spec w ≠ o → (cfg.win w).isOut = false) (b : Ref sig .tc) (hb : b ≠ o) :
    upd W d c (Proc.devRef .tc b) = W c (Proc.devRef .tc b) := by
  by_cases h : ∃ w, arrRef cfg.spec w = b
  · obtain ⟨w, rfl⟩ := h
    exact (upd_arr W d hi c w).trans (((d c).arrAt_in w (ho w hb) _).trans (hA c w))
  · exact withArrays_of_ne _ c _ _ b fun w e => h ⟨w, e⟩
end

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := upd (W1 m ρ) (dat0 (V1 m ρ))
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Dev nD → Valuation τ sig (Elt F) := upd (W3 m ρ) (dat1 (V3 m ρ))
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Dev nD → Valuation τ sig (Elt F) := upd (W5 m ρ) (dat2 (V5 m ρ))
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 : Dev nD → Valuation τ sig (Elt F) := upd (W7 m ρ) (dat3 (V7 m ρ))

variable (c : Dev nD) (b : Ref sig .tc)

theorem W2_out : W2 m ρ c (Proc.devRef .tc main_v16) = (dat0 (V1 m ρ) c).arrAt 6 cfg0.N := upd_arr _ _ launch0.win.arr_inj c 6
theorem W4_out : W4 m ρ c (Proc.devRef .tc main_v29) = (dat1 (V3 m ρ) c).arrAt 6 cfg1.N := upd_arr _ _ launch1.win.arr_inj c 6
theorem W6_out : W6 m ρ c (Proc.devRef .tc main_v42) = (dat2 (V5 m ρ) c).arrAt 6 cfg2.N := upd_arr _ _ launch2.win.arr_inj c 6
theorem W8_out : W8 m ρ c (Proc.devRef .tc main_v54) = (dat3 (V7 m ρ) c).arrAt 16 cfg3.N := upd_arr _ _ launch3.win.arr_inj c 16

theorem W2_keep (hb : b ≠ main_v16) : W2 m ρ c (Proc.devRef .tc b) = W1 m ρ c (Proc.devRef .tc b) :=
  upd_keep _ _ launch0.win.arr_inj c (A_eq0 _) _ (by decide) b hb
theorem W4_keep (hb : b ≠ main_v29) : W4 m ρ c (Proc.devRef .tc b) = W3 m ρ c (Proc.devRef .tc b) :=
  upd_keep _ _ launch1.win.arr_inj c (A_eq1 _) _ (by decide) b hb
theorem W6_keep (hb : b ≠ main_v42) : W6 m ρ c (Proc.devRef .tc b) = W5 m ρ c (Proc.devRef .tc b) :=
  upd_keep _ _ launch2.win.arr_inj c (A_eq2 _) _ (by decide) b hb
theorem W8_keep (hb : b ≠ main_v54) : W8 m ρ c (Proc.devRef .tc b) = W7 m ρ c (Proc.devRef .tc b) :=
  upd_keep _ _ launch3.win.arr_inj c (A_eq3 _) _ (by decide) b hb

theorem W8_of_arg (h0 : b ∉ hostOps0_W) (h1 : b ∉ hostOps1_W) (h2 : b ∉ hostOps2_W) (h3 : b ∉ hostOps3_W)
    (hv : b ≠ main_v16 ∧ b ≠ main_v29 ∧ b ≠ main_v42 ∧ b ≠ main_v54) :
    W8 m ρ c (Proc.devRef .tc b) = m ((c : Thread nD τ).loc b) :=
  (W8_keep m ρ c b hv.2.2.2).trans <| (StableHlo.after_of_writes_sub hostOps3 _ hostOps3_writes h3).trans <|
  (W6_keep m ρ c b hv.2.2.1).trans <| (StableHlo.after_of_writes_sub hostOps2 _ hostOps2_writes h2).trans <|
  (W4_keep m ρ c b hv.2.1).trans <| (StableHlo.after_of_writes_sub hostOps1 _ hostOps1_writes h1).trans <|
  (W2_keep m ρ c b hv.1).trans <| StableHlo.after_of_writes_sub hostOps0 _ hostOps0_writes h0

theorem mem_uc (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev T (W : Dev nD → Valuation τ sig (Elt F)) (c : Dev nD) : sProp 𝕄 := iprop(StableHlo.held (c : Thread nD τ) (ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  .ofOps _ _ _ _ _ (ucRefs τ sig) ops (fun op h => sub_ucRefs op (List.forall_iff_forall_mem.mp hsub op h))
    (List.forall_iff_forall_mem.mp hfresh) W R

/-- Region `p` carries the state `T W` to `T (upd W _)`, for any data whose arrays are read off `W`. -/
def reg (pd : (p : Fin 4) → (c : Dev nD) → Dat τ (Elt F) Unit ℕ (UR sig nD τ) ℕ (pin (pcfgs (F := F)) adm p) c)
    (p : Fin 4) (lf : LaunchFacts (nD := nD) (τ := τ) cfgs p) (W : Dev nD → Valuation τ sig (Elt F))
    (hb : ∀ c, BodyObligation (pd p c) defs₀ 𝒱₀ () Set.univ) (hA : ∀ c w, (pd p c).A w = W c (arrRef (cfgs p).spec w))
    (hi : ∀ c, ΦA (cfgs p).spec c ⊢ (pd p c).Φ 0 := by exact fun _ => .rfl)
    (hO : ∀ c, (pd p c).Φ (Fin.last _) ⊢ ΦA (cfgs p).spec c := by exact fun _ => .rfl)
    (ho : ∀ c t, (pd p c).owed t = 0 := by exact fun _ _ => rfl) (hr : ∀ c, (pd p c).recorded 0 = Set.univ := by exact fun _ => rfl)
    (hq : ∀ c w, (pd p c).q w = fullShare := by exact fun _ _ => rfl) :
    RegionSeg (pcfgs (F := F)) adm pd () defs₀ 𝒱₀ L lv p where
  win := lf.win.to₀
  block_pos := lf.block_pos
  stage_whole := lf.stage_whole
  K := PEmpty
  osem k := k.elim
  ho := .none _
  hbody c := (hb c).loose
  hwaits := hwaits_of_owed_zero _ _ _ _ L lv p ho
  pre := T W
  post := T (upd W (pd p))
  X c := iprop(∃ r, prngReg c r)
  Y c := iprop(∃ r, prngReg c r)
  Z c := unscopedRest (cfgs p).spec c (W c ·)
  hentry c := by
    have hs := arrays_of_unscopedBufs (pcfgs (F := F)) adm pd lf.win lf.arr_whole c ((pd p c).share_full (hq c)) (W c ·) (hA c)
    rw [unscopedBufs_held] at hs
    unfold Dat.owesAt owesWithin prefHeld
    rw [ho c 0, show (Finset.univ : Finset (Fin 0)) = ∅ from rfl, BI.bigSep_empty]
    iintro ⟨⟨Hu, Hp, %V, HO⟩, -, -⟩
    icases hs $$ Hu with ⟨Ha, Hr⟩
    imodintro
    iframe Ha Hp Hr
    isplitr; · iempintro
    iexists V; iframe HO
    ipureintro; exact fun x _ => .inl (hr c ▸ Set.mem_univ x)
  hin c := .trans (by unfold ΦA; iintro ⟨Hp, -, Hr⟩; iframe) (hi c)
  hout c := (hO c).trans (by rw [ownSems0_none]; unfold ΦA; iintro ⟨Hr, Hp⟩; iframe; iempintro)
  hexit c := by
    have hj := unscopedBufs_of_arrays (p := p) (pcfgs (F := F)) adm lf.win lf.arr_whole c pd ((pd p c).share_full (hq c)) (W c ·)
      (upd W (pd p) c ·) ((pd p c).arrAt · (cfgs p).N) (fun w => (upd_arr _ _ lf.win.arr_inj c w).symm)
      fun b hb => withArrays_of_ne _ c _ _ b fun w e => hb (Finset.mem_image.mpr ⟨w, Finset.mem_univ _, e⟩)
    rw [unscopedBufs_held] at hj
    unfold Dat.owesAt owesWithin
    rw [ho c]
    iintro ⟨Ha, ⟨%V, -, HO⟩, HY, Hr⟩
    imodintro
    isplitl [Ha Hr]; · iapply hj; iframe
    isplitl [HY]; · iexact HY
    iexists V; iexact HO

def pdats : (p : Fin 4) → (c : Dev nD) → Dat τ (Elt F) Unit ℕ (UR sig nD τ) ℕ (pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)

abbrev segs : List (Seg (pcfgs (F := F)) adm (pdats m ρ) () defs₀ 𝒱₀ L lv) :=
  [ .host (hseg hostOps0 hostOps0_sub hostOps0_fresh (W0 m ρ)), .region (reg _ 0 launch0 (W1 m ρ) (body_obligation0 _) (A_eq0 _)),
    .host (hseg hostOps1 hostOps1_sub hostOps1_fresh (W2 m ρ)), .region (reg _ 1 launch1 (W3 m ρ) (body_obligation1 _) (A_eq1 _)),
    .host (hseg hostOps2 hostOps2_sub hostOps2_fresh (W4 m ρ)), .region (reg _ 2 launch2 (W5 m ρ) (body_obligation2 _) (A_eq2 _)),
    .host (hseg hostOps3 hostOps3_sub hostOps3_fresh (W6 m ρ)),
    .region (reg _ 3 launch3 (W7 m ρ) (body_obligation3 _) (A_eq3 _) (hin3 _) (hout3 _)) ]

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  θ_run_regions_kit (pcfgs (F := F)) adm (pdats m ρ) () cellOf_inj emb₁ defs₀ 𝒱₀ L lv m ρ main (segs m ρ)
    (fun c Q => by rw [(main_chain c).trans (by chain_rfl : _ = Seg.run (segs m ρ))])
    (by simp only [segs, Seg.pipes_host, Seg.pipes_region, Seg.pipes_nil]; decide)
    (O₀ := 0) (hL := fun _ _ => rfl) (G := fun _ => BI.emp) (u₀ := initOf (cells cfgs cellOf_inj) (launchToks cfgs cellOf_inj))
    (hu₀ := by rw [BI.bigSep_emp_const]; exact sep_emp.2.trans fupd_intro)
    (T₀ := T (W0 m ρ)) (Tₙ := fun c => iprop(StableHlo.held (c : Thread nD τ) (ucRefs τ sig) (W8 m ρ c) ∗ ∃ r, prngReg c r))
    (hch := by and_intros <;> first | exact fun _ => .rfl | exact fun _ => sep_assoc')
    (hinit := by
      refine initEach L lv fun c => ?_
      rw [show unscopedBufs c (fun b => m ((c : Thread nD τ).loc b)) = StableHlo.held (c : Thread nD τ) (ucRefs τ sig) (W0 m ρ c)
        from unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ ucRefs τ sig, s.mem (((c : Thread nD τ)).1, b) = W8 m ρ c b)
    (hfin := fun c s' => by
      iintro ⟨⟨Hh, -⟩, HSI⟩
      unfold StableHlo.held
      imodintro
      iapply (pointsTo_read_all (ucRefs τ sig) (fun b => (((c : Thread nD τ)).1, b)) (W8 m ρ c) s')
      iframe)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => by
    and_intros <;> exact (h c _ (mem_uc _ (by decide))).trans (W8_of_arg m ρ c _ (by decide) (by decide) (by decide) (by decide) (by decide)))
    (run_main m ρ)

end Cert.Kernel.Fr

end
-- ==== Proof.KI.Regions.lean ====
import proofs.«428666_j20289425506393_1_alg».proof.Proof.KI.Launch
import Idealize.ShloMosaic.Lib.Pipeline.Frame
import Idealize.ShloMosaic.Lib.Pipeline.Regions

noncomputable section

namespace Cert.KernelIdeal.GenP

open Cert.KernelIdeal.Gen
open Idealize.ShloMosaic Idealize.ShloMosaic.TcCoe

variable {F : FTy → Type} [FloatOps F]

/-- Per host stretch: none of its operations allocates, and each writes only a reference of the listed ones (each operation's one written reference is looked up in the list). -/
theorem hostOps0_fresh : (hostOps0 : List (HloOp τ sig (Elt F))).Forall fun op => op.fresh = ∅ := by
  simp only [List.Forall]; repeat' constructor
abbrev hostOps0_W : List (Ref sig .tc) := [main_v0, main_v1, main_v2, main_v3, main_c, main_v4, main_v5, main_c_0, main_v6, main_v7, main_v8, main_v9, main_v10, main_cst, main_v11, main_v12, main_v13, main_v14, main_v15]
theorem hostOps0_writes : (hostOps0 : List (HloOp τ sig (Elt F))).Forall fun op => op.writes ⊆ (hostOps0_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps1_fresh : (hostOps1 : List (HloOp τ sig (Elt F))).Forall fun op => op.fresh = ∅ := by
  simp only [List.Forall]; repeat' constructor
abbrev hostOps1_W : List (Ref sig .tc) := [main_c_1, main_v17, main_v18, main_c_2, main_v19, main_v20, main_v21, main_v22, main_v23, main_cst_3, main_v24, main_v25, main_v26, main_v27, main_v28]
theorem hostOps1_writes : (hostOps1 : List (HloOp τ sig (Elt F))).Forall fun op => op.writes ⊆ (hostOps1_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps2_fresh : (hostOps2 : List (HloOp τ sig (Elt F))).Forall fun op => op.fresh = ∅ := by
  simp only [List.Forall]; repeat' constructor
abbrev hostOps2_W : List (Ref sig .tc) := [main_c_4, main_v30, main_v31, main_c_5, main_v32, main_v33, main_v34, main_v35, main_v36, main_cst_6, main_v37, main_v38, main_v39, main_v40, main_v41]
theorem hostOps2_writes : (hostOps2 : List (HloOp τ sig (Elt F))).Forall fun op => op.writes ⊆ (hostOps2_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

theorem hostOps3_fresh : (hostOps3 : List (HloOp τ sig (Elt F))).Forall fun op => op.fresh = ∅ := by
  simp only [List.Forall]; repeat' constructor
abbrev hostOps3_W : List (Ref sig .tc) := [main_v43, main_v44, main_v45, main_v46, main_v47, main_v48, main_v49, main_v50, main_v51, main_v52, main_v53]
theorem hostOps3_writes : (hostOps3 : List (HloOp τ sig (Elt F))).Forall fun op => op.writes ⊆ (hostOps3_W.map (Proc.devRef (τ := τ) .tc)).toFinset := by
  simp only [List.Forall]
  and_intros <;> (simp only [StableHlo.nullary_writes, StableHlo.unary_writes, StableHlo.binary_writes, StableHlo.ternary_writes, StableHlo.quaternary_writes,
    StableHlo.reshape_writes, StableHlo.binaryIndexed_writes, StableHlo.unaryIndexed_writes, StableHlo.nary_writes, Finset.singleton_subset_iff, List.mem_toFinset]; exact List.mem_map_of_mem (by decide))

/-- No region of this program takes a table operand. -/
abbrev adm : (p : Fin 4) → (pcfgs (F := F) p).Adm := fun p => (cfgs p).toPCfg_adm

end Cert.KernelIdeal.GenP

end
-- ==== Proof.KI.RegA0.lean ====
import proofs.«428666_j20289425506393_1_alg».proof.Proof.KI.Launch
import proofs.«428666_j20289425506393_1_alg».proof.Proof.Gen.KernelIdeal.Skeleton
import proofs.«428666_j20289425506393_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x7 := Rect.unit (s := S2000x7) ![0, 0] S2000x7.size inb_S2000x7_S2000x7_0_0
abbrev r0_1 : Rect S7x128 := Rect.unit (s := S7x128) ![0, 0] S7x128.size inb_S7x128_S7x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S2000x128 := Rect.unit (s := S2000x128) ![0, 0] S2000x128.size inb_S2000x128_S2000x128_0_0

/-- The output block the body leaves: its one whole-block store of the layer's payload of the six whole-block loads. -/
def out0_6 (x0 x1 : Vec F S2000x7 .f32) (x2 : Vec F S7x128 .f32) (x3 : Vec F S1x128 .f32) (x4 : Vec F S128x128 .f32) (x5 : Vec F S1x128 .f32) : Vec F S2000x128 .f32 :=
  View.canon [⟨r0_4, k0_pay1 (View.ld x0 r0_0) (View.ld x1 r0_0) (View.ld x2 r0_1) (View.ld x3 r0_2) (View.ld x4 r0_3) (View.ld x5 r0_2)⟩]

theorem hz0 : (![0, 0] : Fin 2 → ℕ) = fun _ => 0 := by funext a; fin_cases a <;> rfl

/-- Every access is of a whole block at offset zero, so the stored block is the payload of the loaded blocks. -/
theorem out0_6_eq (x0 x1 : Vec F S2000x7 .f32) (x2 : Vec F S7x128 .f32) (x3 : Vec F S1x128 .f32) (x4 : Vec F S128x128 .f32) (x5 : Vec F S1x128 .f32) :
    out0_6 x0 x1 x2 x3 x4 x5 = k0_pay1 x0 x1 x2 x3 x4 x5 := by
  unfold out0_6
  rw [View.canon_unit_zero (S := S2000x128) hz0]
  simp only [View.ld_unit_zero (S := S2000x7) hz0, View.ld_unit_zero (S := S7x128) hz0, View.ld_unit_zero (S := S1x128) hz0,
    View.ld_unit_zero (S := S128x128) hz0]

theorem cover0_6 (p0 : Vec F S2000x128 .f32) (y : S2000x128.Idx) :
    ∃ pc ∈ ([⟨r0_4, p0⟩] : List (View.Piece (Elt F) S2000x128 .f32)), y ∈ pc.1.set :=
  View.cover_of_tiled [⟨r0_4, p0⟩] S2000x128.size (by rfl) y

/-- The body, run on whole blocks holding `x0 … x5` and any output block, keeps the inputs and leaves `out0_6` of them. -/
theorem sound_kernel0 (c : Dev nD) (E : Set ℕ) (i : grid0.Coords)
    (arg1 : Memref sig .tc .vmem S2000x7 .f32) (harg1 : arg1.IsWhole) (arg2 : Memref sig .tc .vmem S2000x7 .f32) (harg2 : arg2.IsWhole)
    (arg3 : Memref sig .tc .vmem S7x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x7 .f32) (x2 : Vec F S7x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5)) -∗ K ⟨⟩))
      ⊢ wp frame (wpE (defs₀ (F := F)) Variants.none c none) E (cc0__gin_mlp_kernel i arg1 harg1 arg2 harg2 arg3 harg3 arg4 harg4 arg5 harg5 arg6 harg6 arg7 harg7) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover0_6 _)

/-- On core `c`: the arrays as in `V`; after point `t` each input block unchanged and the output block `out0_6` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Before the body at any point every input window holds its own block: the body leaves it as it found it. -/
theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point is `sound_kernel0` at the point's input blocks. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) (iblk0 V c 5 t) _)
  iframe
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.RegA1.lean ====
import proofs.«428666_j20289425506393_1_alg».proof.Proof.KI.Launch
import proofs.«428666_j20289425506393_1_alg».proof.Proof.Gen.KernelIdeal.Skeleton
import proofs.«428666_j20289425506393_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x128 := Rect.unit (s := S2000x128) ![0, 0] S2000x128.size inb_S2000x128_S2000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S128x128 := Rect.unit (s := S128x128) ![0, 0] S128x128.size inb_S128x128_S128x128_0_0
abbrev r1_4 : Rect S2000x128 := Rect.unit (s := S2000x128) ![0, 0] S2000x128.size inb_S2000x128_S2000x128_0_0

/-- The output block the body leaves: its one whole-block store of the layer's payload of the six whole-block loads. -/
def out1_6 (x0 x1 : Vec F S2000x128 .f32) (x2 : Vec F S128x128 .f32) (x3 : Vec F S1x128 .f32) (x4 : Vec F S128x128 .f32) (x5 : Vec F S1x128 .f32) : Vec F S2000x128 .f32 :=
  View.canon [⟨r1_4, k1_pay1 (View.ld x0 r1_0) (View.ld x1 r1_0) (View.ld x2 r1_1) (View.ld x3 r1_2) (View.ld x4 r1_3) (View.ld x5 r1_2)⟩]

theorem hz1 : (![0, 0] : Fin 2 → ℕ) = fun _ => 0 := by funext a; fin_cases a <;> rfl

/-- Every access is of a whole block at offset zero, so the stored block is the payload of the loaded blocks. -/
theorem out1_6_eq (x0 x1 : Vec F S2000x128 .f32) (x2 : Vec F S128x128 .f32) (x3 : Vec F S1x128 .f32) (x4 : Vec F S128x128 .f32) (x5 : Vec F S1x128 .f32) :
    out1_6 x0 x1 x2 x3 x4 x5 = k1_pay1 x0 x1 x2 x3 x4 x5 := by
  unfold out1_6
  rw [View.canon_unit_zero (S := S2000x128) hz1]
  simp only [View.ld_unit_zero (S := S2000x128) hz1, View.ld_unit_zero (S := S128x128) hz1, View.ld_unit_zero (S := S1x128) hz1,
    View.ld_unit_zero (S := S128x128) hz1]

theorem cover1_6 (p0 : Vec F S2000x128 .f32) (y : S2000x128.Idx) :
    ∃ pc ∈ ([⟨r1_4, p0⟩] : List (View.Piece (Elt F) S2000x128 .f32)), y ∈ pc.1.set :=
  View.cover_of_tiled [⟨r1_4, p0⟩] S2000x128.size (by rfl) y

/-- The body, run on whole blocks holding `x0 … x5` and any output block, keeps the inputs and leaves `out1_6` of them. -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__gin_mlp_kernel i arg1 harg1 arg2 harg2 arg3 harg3 arg4 harg4 arg5 harg5 arg6 harg6 arg7 harg7) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover1_6 _)

/-- On core `c`: the arrays as in `V`; after point `t` each input block unchanged and the output block `out1_6` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Before the body at any point every input window holds its own block: the body leaves it as it found it. -/
theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point is `sound_kernel1` at the point's input blocks. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  iframe
  isplitl [H6]; · iexists _; iexact H6
  iintro ⟨H0, H1, H2, H3, H4, H5, H6⟩
  iframe

theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.RegA2.lean ====
import proofs.«428666_j20289425506393_1_alg».proof.Proof.KI.Launch
import proofs.«428666_j20289425506393_1_alg».proof.Proof.Gen.KernelIdeal.Skeleton
import proofs.«428666_j20289425506393_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array in `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x128 := Rect.unit (s := S2000x128) ![0, 0] S2000x128.size inb_S2000x128_S2000x128_0_0
abbrev r2_1 : Rect S128x128 := Rect.unit (s := S128x128) ![0, 0] S128x128.size inb_S128x128_S128x128_0_0
abbrev r2_2 : Rect S1x128 := Rect.unit (s := S1x128) ![0, 0] S1x128.size inb_S1x128_S1x128_0_0
abbrev r2_3 : Rect S128x128 := Rect.unit (s := S128x128) ![0, 0] S128x128.size inb_S128x128_S128x128_0_0
abbrev r2_4 : Rect S2000x128 := Rect.unit (s := S2000x128) ![0, 0] S2000x128.size inb_S2000x128_S2000x128_0_0

/-- The output block the body leaves: its one whole-block store of the layer's payload of the six whole-block loads. -/
def out2_6 (x0 x1 : Vec F S2000x128 .f32) (x2 : Vec F S128x128 .f32) (x3 : Vec F S1x128 .f32) (x4 : Vec F S128x128 .f32) (x5 : Vec F S1x128 .f32) : Vec F S2000x128 .f32 :=
  View.canon [⟨r2_4, k2_pay1 (View.ld x0 r2_0) (View.ld x1 r2_0) (View.ld x2 r2_1) (View.ld x3 r2_2) (View.ld x4 r2_3) (View.ld x5 r2_2)⟩]

theorem hz2 : (![0, 0] : Fin 2 → ℕ) = fun _ => 0 := by funext a; fin_cases a <;> rfl

/-- Every access is of a whole block at offset zero, so the stored block is the payload of the loaded blocks. -/
theorem out2_6_eq (x0 x1 : Vec F S2000x128 .f32) (x2 : Vec F S128x128 .f32) (x3 : Vec F S1x128 .f32) (x4 : Vec F S128x128 .f32) (x5 : Vec F S1x128 .f32) :
    out2_6 x0 x1 x2 x3 x4 x5 = k2_pay1 x0 x1 x2 x3 x4 x5 := by
  unfold out2_6
  rw [View.canon_unit_zero (S := S2000x128) hz2]
  simp only [View.ld_unit_zero (S := S2000x128) hz2, View.ld_unit_zero (S := S128x128) hz2, View.ld_unit_zero (S := S1x128) hz2,
    View.ld_unit_zero (S := S128x128) hz2]

theorem cover2_6 (p0 : Vec F S2000x128 .f32) (y : S2000x128.Idx) :
    ∃ pc ∈ ([⟨r2_4, p0⟩] : List (View.Piece (Elt F) S2000x128 .f32)), y ∈ pc.1.set :=
  View.cover_of_tiled [⟨r2_4, p0⟩] S2000x128.size (by rfl) y

/-- The body, run on whole blocks holding `x0 … x5` and any output block, keeps the inputs and leaves `out2_6` of them. -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S1x128 .f32) (harg6 : arg6.IsWhole)
    (arg7 : Memref sig .tc .vmem S2000x128 .f32) (harg7 : arg7.IsWhole)
    (x0 x1 : Vec F S2000x128 .f32) (x2 : Vec F S128x128 .f32) (x3 : Vec F S1x128 .f32) (x4 : Vec F S128x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2__gin_mlp_kernel i arg1 harg1 arg2 harg2 arg3 harg3 arg4 harg4 arg5 harg5 arg6 harg6 arg7 harg7) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact View.read_writes_eq_canon _ _ _ (cover2_6 _)

/-- On core `c`: the arrays as in `V`; after point `t` each input block unchanged and the output block `out2_6` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

/-- Before the body at any point every input window holds its own block: the body leaves it as it found it. -/
theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point is `sound_kernel2` at the point's input blocks. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  iframe
  isplitl [H6]; · iexists _; iexact H6
  iintro ⟨H0, H1, H2, H3, H4, H5, H6⟩
  iframe

theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Reg3Defs.lean ====
import proofs.«428666_j20289425506393_1_alg».proof.Proof.Gen.KernelIdeal.Skeleton

noncomputable section

namespace Cert.KernelIdeal.Fr

open Cert.KernelIdeal Cert.KernelIdeal.Gen
open Idealize.ShloMosaic

variable {F : FTy → Type} [FloatOps F]

/-- The per-graph sums before the first point. -/
def zero3 : Vec F S256x128 .f32 := k3_pay3

/-- The sums after one point, from the sums before it. -/
def step3 (x0 x1 x2 : Vec F S2000x128 .f32) (x3 : Vec F S2000x1 .i32) (x4 x5 x6 : Vec F S128x128 .f32) (x7 : Vec F S1x128 .f32)
    (acc : Vec F S256x128 .f32) : Vec F S256x128 .f32 :=
  k3_pay1 (k3_pay4 x0 x1 x2 x4 x5 x6 x7) (k3_pay5 x3) acc

/-- The classifier's value on the finished sums. -/
def fin3 (acc : Vec F S256x128 .f32) (x8 : Vec F S128x256 .f32) (x9 x10 x11 x12 x13 : Vec F S1x256 .f32) (x14 : Vec F S256x2 .f32)
    (x15 : Vec F S1x2 .f32) : Vec F S256x2 .f32 :=
  k3_pay2 acc x8 x9 x12 x13 x10 x11 x14 x15

end Cert.KernelIdeal.Fr

end
-- ==== Proof.KI.Reg3.lean ====
import proofs.«428666_j20289425506393_1_alg».proof.Proof.KI.Launch
import proofs.«428666_j20289425506393_1_alg».proof.Proof.KI.Reg3Defs
import proofs.«428666_j20289425506393_1_alg».proof.Proof.Gen.KernelIdeal.Skeleton
import proofs.«428666_j20289425506393_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Pipeline.TableIdle
import Idealize.ShloMosaic.Lib.Pipeline.RegionsLoop
import Idealize.ShloMosaic.Lib.Ring
import Idealize.ShloMosaic.Lib.Tactic

noncomputable section

namespace Cert.KernelIdeal.Fr

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Conds

abbrev cond3_0 (i : grid3.Coords) : Prop := (Scalar.cmpi .ne (Scalar.extui (Scalar.cmpi .eq (BitVec.ofNat 32 (i 0).val) 0#32)) 0#32) = 1#1
abbrev cond3_1 (i : grid3.Coords) : Prop := k3_cond2 i = 1#1

theorem hcond3_0 : ∀ t : Fin cfg3.N, cond3_0 (grid3.coords t) ↔ t.val = 0 :=
  (by decide +kernel : ∀ t : Fin grid3.N, cond3_0 (grid3.coords t) ↔ t.val = 0)
theorem hcond3_1 : ∀ t : Fin cfg3.N, cond3_1 (grid3.coords t) ↔ t.val = 49 :=
  (by decide +kernel : ∀ t : Fin grid3.N, cond3_1 (grid3.coords t) ↔ t.val = 49)

theorem liveAt3 : ∀ (w : Fin cfg3.W) (t : Fin cfg3.N), w.val < 16 → cfg3.idle w (grid3.coords t) = false := by decide +kernel
theorem idleAt3_16 : ∀ t : Fin cfg3.N, t.val ≠ 49 → cfg3.idle 16 (grid3.coords t) = true ∧ (cfg3.win 16).flush t = false := by decide +kernel
theorem liveAt3_16 : ∀ t : Fin cfg3.N, t.val = 49 → cfg3.idle 16 (grid3.coords t) = false := by decide +kernel

abbrev ms3_0 (t : Fin cfg3.N) := win3_0.stage (cfg3.slots t 0)
abbrev ms3_1 (t : Fin cfg3.N) := win3_1.stage (cfg3.slots t 1)
abbrev ms3_2 (t : Fin cfg3.N) := win3_2.stage (cfg3.slots t 2)
abbrev ms3_3 (t : Fin cfg3.N) := win3_3.stage (cfg3.slots t 3)
abbrev ms3_4 (t : Fin cfg3.N) := win3_4.stage (cfg3.slots t 4)
abbrev ms3_5 (t : Fin cfg3.N) := win3_5.stage (cfg3.slots t 5)
abbrev ms3_6 (t : Fin cfg3.N) := win3_6.stage (cfg3.slots t 6)
abbrev ms3_7 (t : Fin cfg3.N) := win3_7.stage (cfg3.slots t 7)
abbrev ms3_8 (t : Fin cfg3.N) := win3_8.stage (cfg3.slots t 8)
abbrev ms3_9 (t : Fin cfg3.N) := win3_9.stage (cfg3.slots t 9)
abbrev ms3_10 (t : Fin cfg3.N) := win3_10.stage (cfg3.slots t 10)
abbrev ms3_11 (t : Fin cfg3.N) := win3_11.stage (cfg3.slots t 11)
abbrev ms3_12 (t : Fin cfg3.N) := win3_12.stage (cfg3.slots t 12)
abbrev ms3_13 (t : Fin cfg3.N) := win3_13.stage (cfg3.slots t 13)
abbrev ms3_14 (t : Fin cfg3.N) := win3_14.stage (cfg3.slots t 14)
abbrev ms3_15 (t : Fin cfg3.N) := win3_15.stage (cfg3.slots t 15)
abbrev ms3_16 (t : Fin cfg3.N) := win3_16.stage (cfg3.slots t 16)
abbrev scM3_0 : Memref sig .tc .vmem S256x128 .f32 := Memref.whole cc3_scratch0

/-- The region's resources around the per-graph sums, the sums themselves held as `P`. -/
def inv3 (c : Dev nD) (P : sProp 𝕄) : sProp 𝕄 :=
  iprop(iprop(P ∗ Pipeline.scopedRestBut (Ix := Unit) (Name := ℕ) (U := UR sig nD τ) (Lvl := ℕ) (Val := Elt F) spec3 c [cc3_scratch0]) ∗ (∃ r, prngReg c r))

theorem PhiA3_eq (c : Dev nD) : (Pipeline.ΦA spec3 c : sProp 𝕄) = inv3 c iprop(∃ d, owns c.tc scM3_0 fullShare d) := by
  unfold Pipeline.ΦA inv3; rw [scopedRest3_split]; simp only [scM3_0, owns_whole]; try rfl

end Conds

section Runs

theorem hz3 : (![0, 0] : Fin 2 → Nat) = fun _ => 0 := funext fun a => by fin_cases a <;> rfl

theorem owns_eq_unread {sp : Space} {s : Shape} {e : EltTy} {m : Memref sig .tc sp s e} (h : m.IsWhole) (c : Dev nD) (X : s.Idx → Elt F e) :
    (owns c.tc m fullShare X : sProp 𝕄) = (m.view.loc c.tc ↦[m.view.set]{fullShare} h.unread X) := by
  rw [owns_eq_rep, h.eq_unread (View.read_rep _ _)]

variable (c : Dev nD) (i : grid3.Coords) (arg1 arg2 arg3 : Memref sig .tc .vmem S2000x128 .f32) (arg4 : Memref sig .tc .vmem S2000x1 .i32) (arg5 arg6 arg7 : Memref sig .tc .vmem S128x128 .f32) (arg8 : Memref sig .tc .vmem S1x128 .f32) (arg9 : Memref sig .tc .vmem S128x256 .f32) (arg10 arg11 arg12 arg13 arg14 : Memref sig .tc .vmem S1x256 .f32) (arg15 : Memref sig .tc .vmem S256x2 .f32) (arg16 : Memref sig .tc .vmem S1x2 .f32) (arg17 : Memref sig .tc .vmem S256x2 .f32) (arg18 : Memref sig .tc .vmem S256x128 .f32)
  (x0 x1 x2 : Vec F S2000x128 .f32) (x3 : Vec F S2000x1 .i32) (x4 x5 x6 : Vec F S128x128 .f32) (x7 : Vec F S1x128 .f32) (x8 : Vec F S128x256 .f32) (x9 x10 x11 x12 x13 : Vec F S1x256 .f32) (x14 : Vec F S256x2 .f32) (x15 : Vec F S1x2 .f32)

/-- The sixteen operands at their values. -/
def ins3 : sProp 𝕄 :=
  iprop(owns c.tc arg1 fullShare x0 ∗ owns c.tc arg2 fullShare x1 ∗ owns c.tc arg3 fullShare x2 ∗ owns c.tc arg4 fullShare x3 ∗ owns c.tc arg5 fullShare x4 ∗ owns c.tc arg6 fullShare x5 ∗ owns c.tc arg7 fullShare x6 ∗ owns c.tc arg8 fullShare x7 ∗ owns c.tc arg9 fullShare x8 ∗ owns c.tc arg10 fullShare x9 ∗ owns c.tc arg11 fullShare x10 ∗ owns c.tc arg12 fullShare x11 ∗ owns c.tc arg13 fullShare x12 ∗ owns c.tc arg14 fullShare x13 ∗ owns c.tc arg15 fullShare x14 ∗ owns c.tc arg16 fullShare x15)

variable {i} {arg1 arg2 arg3 arg4 arg5 arg6 arg7 arg8 arg9 arg10 arg11 arg12 arg13 arg14 arg15 arg16 arg17 arg18} {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {x0 x1 x2 x3 x4 x5 x6 x7 x8 x9 x10 x11 x12 x13 x14 x15}

/-- At the first point the sums end one step from zero, whatever they were. -/
theorem run3_A (hc0 : cond3_0 i) (hc1 : ¬cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare (step3 x0 x1 x2 x3 x4 x5 x6 x7 zero3)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg17]
  unfold owns
  iintro ⟨⟨H0, H1, H2, H3, H4, H5, H6, H7, H8, H9, H10, H11, H12, H13, H14, H15⟩, H16, ⟨%fs0, -, HS0⟩, Hk⟩
  sl_exec (disch := first | exact hc0 | exact hc1)
  sl_step
  iapply Hk
  iframe H0 H1 H2 H3 H4 H5 H6 H7 H8 H9 H10 H11 H12 H13 H14 H15 H16
  iexists _; isplitr; swap; · iexact HS0
  ipureintro
  refine (View.read_writes_eq_canon _ _ _ ?_).trans ?_
  · exact View.cover_of_tiledL _ S256x128.size (by sl_kernel_rfl)
  sl_unfold_words
  rw [View.canon_cons_unit_zero (S := S256x128) hz3, View.readCov_unit_zero (S := S256x128) _ hz3]
  unfold step3 zero3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

/-- At a middle point the sums end one step from what they were. -/
theorem run3_B (hc0 : ¬cond3_0 i) (hc1 : ¬cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare (step3 x0 x1 x2 x3 x4 x5 x6 x7 xa)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg17, owns_eq_unread harg18 c xa]
  iintro ⟨⟨H0, H1, H2, H3, H4, H5, H6, H7, H8, H9, H10, H11, H12, H13, H14, H15⟩, H16, HS0, Hk⟩
  sl_exec (disch := first | exact hc0 | exact hc1)
  sl_step
  iapply Hk
  iframe H0 H1 H2 H3 H4 H5 H6 H7 H8 H9 H10 H11 H12 H13 H14 H15 H16
  unfold owns
  iexists _; isplitr; swap; · iexact HS0
  ipureintro
  refine (View.read_writes_eq_canon _ _ _ ?_).trans ?_
  · exact View.cover_of_tiledL _ S256x128.size (by sl_kernel_rfl)
  sl_unfold_words
  rw [View.canon_unit_zero hz3]
  unfold step3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

/-- At the last point the sums end one step from what they were, and the output is the classifier's value on them. -/
theorem run3_C (hc0 : ¬cond3_0 i) (hc1 : cond3_1 i) (xo : Vec F S256x2 .f32) (xa : Vec F S256x128 .f32) (E : Set ℕ) (K : PUnit → sProp 𝕄) :
    iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare xo ∗ owns c.tc arg18 fullShare xa
        ∗ (iprop(ins3 c arg1 arg2 arg3 arg4 arg5 arg6 arg7 arg8 arg9 arg10 arg11 arg12 arg13 arg14 arg15 arg16 x0 x1 x2 x3 x4 x5 x6 x7 x8 x9 x10 x11 x12 x13 x14 x15 ∗ owns c.tc arg17 fullShare (fin3 (step3 x0 x1 x2 x3 x4 x5 x6 x7 xa) x8 x9 x10 x11 x12 x13 x14 x15) ∗ owns c.tc arg18 fullShare (step3 x0 x1 x2 x3 x4 x5 x6 x7 xa)) -∗ K ⟨⟩))
      ⊢ wp frame (wpE (defs₀ (F := F)) Variants.none c none) E (cc3__jk_pool_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc3__jk_pool_kernel_eq_skeleton]; unfold cc3__jk_pool_kernel_skel
  simp only [k3_part2_eq_skeleton, k3_part1_eq_skeleton]
  unfold ins3
  simp only [owns_eq_unread harg1, owns_eq_unread harg2, owns_eq_unread harg3, owns_eq_unread harg4, owns_eq_unread harg5, owns_eq_unread harg6, owns_eq_unread harg7, owns_eq_unread harg8, owns_eq_unread harg9, owns_eq_unread harg10, owns_eq_unread harg11, owns_eq_unread harg12, owns_eq_unread harg13, owns_eq_unread harg14, owns_eq_unread harg15, owns_eq_unread harg16, owns_eq_unread harg18 c xa]
  unfold owns
  iintro ⟨⟨H0, H1, H2, H3, H4, H5, H6, H7, H8, H9, H10, H11, H12, H13, H14, H15⟩, ⟨%f16, -, H16⟩, HS0, Hk⟩
  sl_exec (disch := first | exact hc0 | exact hc1)
  sl_step
  iapply Hk
  iframe H0 H1 H2 H3 H4 H5 H6 H7 H8 H9 H10 H11 H12 H13 H14 H15
  isplitl [H16]
  · iexists _; isplitr; swap; · iexact H16
    ipureintro
    refine (View.read_writes_eq_canon _ _ _ ?_).trans ?_
    · exact View.cover_of_tiledL _ S256x2.size (by sl_kernel_rfl)
    sl_unfold_words
    rw [View.canon_unit_zero hz3]
    unfold fin3 step3
    simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S128x256) hz3, View.ld_unit_zero (S := S1x256) hz3, View.ld_unit_zero (S := S256x2) hz3, View.ld_unit_zero (S := S1x2) hz3, View.ld_unit_zero (S := S256x128) hz3, View.readCov_unit_zero (S := S256x128) _ hz3]
  iexists _; isplitr; swap; · iexact HS0
  ipureintro
  refine (View.read_writes_eq_canon _ _ _ ?_).trans ?_
  · exact View.cover_of_tiledL _ S256x128.size (by sl_kernel_rfl)
  sl_unfold_words
  rw [View.canon_unit_zero hz3]
  unfold step3
  simp only [View.readAt_eq_ld, Memref.IsWhole.read_unread, View.ld_unit_zero (S := S2000x128) hz3, View.ld_unit_zero (S := S2000x1) hz3, View.ld_unit_zero (S := S128x128) hz3, View.ld_unit_zero (S := S1x128) hz3, View.ld_unit_zero (S := S256x128) hz3]

end Runs

section Regions
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The output block and the per-graph sums after point `n`: the sums one step from the point before's (from zero at the first), the block the classifier's value on them. -/
def outsAt3 (c : Dev nD) : (n : ℕ) → n < cfg3.N → Vec F S256x2 .f32 × Vec F S256x128 .f32
  | n, h =>
    let a := step3 (iblk3 V c 0 ⟨n, h⟩) (iblk3 V c 1 ⟨n, h⟩) (iblk3 V c 2 ⟨n, h⟩) (iblk3 V c 3 ⟨n, h⟩) (iblk3 V c 4 ⟨n, h⟩) (iblk3 V c 5 ⟨n, h⟩) (iblk3 V c 6 ⟨n, h⟩) (iblk3 V c 7 ⟨n, h⟩) (match n, h with
      | 0, _ => zero3
      | m + 1, h => (outsAt3 c m (Nat.lt_of_succ_lt h)).2)
    (fin3 a (iblk3 V c 8 ⟨n, h⟩) (iblk3 V c 9 ⟨n, h⟩) (iblk3 V c 10 ⟨n, h⟩) (iblk3 V c 11 ⟨n, h⟩) (iblk3 V c 12 ⟨n, h⟩) (iblk3 V c 13 ⟨n, h⟩) (iblk3 V c 14 ⟨n, h⟩) (iblk3 V c 15 ⟨n, h⟩), a)

theorem outsAt3_scratch_zero (c : Dev nD) (h : 0 < cfg3.N) :
    (outsAt3 V c 0 h).2 = step3 (iblk3 V c 0 ⟨0, h⟩) (iblk3 V c 1 ⟨0, h⟩) (iblk3 V c 2 ⟨0, h⟩) (iblk3 V c 3 ⟨0, h⟩) (iblk3 V c 4 ⟨0, h⟩) (iblk3 V c 5 ⟨0, h⟩) (iblk3 V c 6 ⟨0, h⟩) (iblk3 V c 7 ⟨0, h⟩) zero3 := rfl

theorem outsAt3_scratch_succ (c : Dev nD) (n : ℕ) (h : n + 1 < cfg3.N) :
    (outsAt3 V c (n + 1) h).2 = step3 (iblk3 V c 0 ⟨n + 1, h⟩) (iblk3 V c 1 ⟨n + 1, h⟩) (iblk3 V c 2 ⟨n + 1, h⟩) (iblk3 V c 3 ⟨n + 1, h⟩) (iblk3 V c 4 ⟨n + 1, h⟩) (iblk3 V c 5 ⟨n + 1, h⟩) (iblk3 V c 6 ⟨n + 1, h⟩) (iblk3 V c 7 ⟨n + 1, h⟩) ((outsAt3 V c n (Nat.lt_of_succ_lt h)).2) := rfl

theorem outsAt3_out (c : Dev nD) (n : ℕ) (h : n < cfg3.N) :
    (outsAt3 V c n h).1 = fin3 ((outsAt3 V c n h).2) (iblk3 V c 8 ⟨n, h⟩) (iblk3 V c 9 ⟨n, h⟩) (iblk3 V c 10 ⟨n, h⟩) (iblk3 V c 11 ⟨n, h⟩) (iblk3 V c 12 ⟨n, h⟩) (iblk3 V c 13 ⟨n, h⟩) (iblk3 V c 14 ⟨n, h⟩) (iblk3 V c 15 ⟨n, h⟩) := by cases n <;> rfl

theorem outsAt3_out_last (c : Dev nD) (h : 49 < cfg3.N) :
    (outsAt3 V c 49 h).1 = fin3 ((outsAt3 V c 49 h).2) (iblk3 V c 8 ⟨49, h⟩) (iblk3 V c 9 ⟨49, h⟩) (iblk3 V c 10 ⟨49, h⟩) (iblk3 V c 11 ⟨49, h⟩) (iblk3 V c 12 ⟨49, h⟩) (iblk3 V c 13 ⟨49, h⟩) (iblk3 V c 14 ⟨49, h⟩) (iblk3 V c 15 ⟨49, h⟩) := outsAt3_out V c 49 h

def PhiS3 (c : Dev nD) : (n : ℕ) → n ≤ cfg3.N → sProp 𝕄
  | 0, _ => Pipeline.ΦA spec3 c
  | n + 1, hn => inv3 c (owns c.tc scM3_0 fullShare (outsAt3 V c n hn).2)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => (outsAt3 V c t.val t.isLt).1
    | ⟨_ + 17, h⟩ => absurd h (Nat.not_lt.2 (Nat.le_add_left _ _))
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem after3_16 (c : Dev nD) (t : Fin cfg3.N) : (dat3 V c).after 16 t = (outsAt3 V c t.val t.isLt).1 := rfl
theorem dat3_share (c : Dev nD) (w : Fin cfg3.W) : (dat3 V c).q w = fullShare := rfl
theorem dat3_owed (c : Dev nD) (t : Fin (cfg3.N + 1)) : (dat3 V c).owed t = 0 := rfl
theorem dat3_recorded (c : Dev nD) (t : Fin (cfg3.N + 1)) : (dat3 V c).recorded t = Set.univ := rfl

variable (c : Dev nD) (t : Fin cfg3.N)

/-- An input's block at a point is its array's block there. -/
theorem before3_0 (d) : (dat3 V c).before 0 t d = iblk3 V c 0 t :=
  ((dat3 V c).before_in_eq_fetched 0 rfl (fun _ => rfl) (fun _ _ _ => rfl) (fun _ => rfl) t d).trans rfl
theorem before3_1 (d) : (dat3 V c).before 1 t d = iblk3 V c 1 t :=
  ((dat3 V c).before_in_eq_fetched 1 rfl (fun _ => rfl) (fun _ _ _ => rfl) (fun _ => rfl) t d).trans rfl
theorem before3_2 (d) : (dat3 V c).before 2 t d = iblk3 V c 2 t :=
  ((dat3 V c).before_in_eq_fetched 2 rfl (fun _ => rfl) (fun _ _ _ => rfl) (fun _ => rfl) t d).trans rfl
theorem before3_3 (d) : (dat3 V c).before 3 t d = iblk3 V c 3 t :=
  ((dat3 V c).before_in_eq_fetched 3 rfl (fun _ => rfl) (fun _ _ _ => rfl) (fun _ => rfl) t d).trans rfl
theorem before3_4 (d) : (dat3 V c).before 4 t d = iblk3 V c 4 t :=
  ((dat3 V c).before_in_eq_fetched 4 rfl (fun _ => rfl) (fun _ _ _ => rfl) (fun _ => rfl) t d).trans rfl
theorem before3_5 (d) : (dat3 V c).before 5 t d = iblk3 V c 5 t :=
  ((dat3 V c).before_in_eq_fetched 5 rfl (fun _ => rfl) (fun _ _ _ => rfl) (fun _ => rfl) t d).trans rfl
theorem before3_6 (d) : (dat3 V c).before 6 t d = iblk3 V c 6 t :=
  ((dat3 V c).before_in_eq_fetched 6 rfl (fun _ => rfl) (fun _ _ _ => rfl) (fun _ => rfl) t d).trans rfl
theorem before3_7 (d) : (dat3 V c).before 7 t d = iblk3 V c 7 t :=
  ((dat3 V c).before_in_eq_fetched 7 rfl (fun _ => rfl) (fun _ _ _ => rfl) (fun _ => rfl) t d).trans rfl
theorem before3_8 (d) : (dat3 V c).before 8 t d = iblk3 V c 8 t :=
  ((dat3 V c).before_in_eq_fetched 8 rfl (fun _ => rfl) (fun _ _ _ => rfl) (fun _ => rfl) t d).trans rfl
theorem before3_9 (d) : (dat3 V c).before 9 t d = iblk3 V c 9 t :=
  ((dat3 V c).before_in_eq_fetched 9 rfl (fun _ => rfl) (fun _ _ _ => rfl) (fun _ => rfl) t d).trans rfl
theorem before3_10 (d) : (dat3 V c).before 10 t d = iblk3 V c 10 t :=
  ((dat3 V c).before_in_eq_fetched 10 rfl (fun _ => rfl) (fun _ _ _ => rfl) (fun _ => rfl) t d).trans rfl
theorem before3_11 (d) : (dat3 V c).before 11 t d = iblk3 V c 11 t :=
  ((dat3 V c).before_in_eq_fetched 11 rfl (fun _ => rfl) (fun _ _ _ => rfl) (fun _ => rfl) t d).trans rfl
theorem before3_12 (d) : (dat3 V c).before 12 t d = iblk3 V c 12 t :=
  ((dat3 V c).before_in_eq_fetched 12 rfl (fun _ => rfl) (fun _ _ _ => rfl) (fun _ => rfl) t d).trans rfl
theorem before3_13 (d) : (dat3 V c).before 13 t d = iblk3 V c 13 t :=
  ((dat3 V c).before_in_eq_fetched 13 rfl (fun _ => rfl) (fun _ _ _ => rfl) (fun _ => rfl) t d).trans rfl
theorem before3_14 (d) : (dat3 V c).before 14 t d = iblk3 V c 14 t :=
  ((dat3 V c).before_in_eq_fetched 14 rfl (fun _ => rfl) (fun _ _ _ => rfl) (fun _ => rfl) t d).trans rfl
theorem before3_15 (d) : (dat3 V c).before 15 t d = iblk3 V c 15 t :=
  ((dat3 V c).before_in_eq_fetched 15 rfl (fun _ => rfl) (fun _ _ _ => rfl) (fun _ => rfl) t d).trans rfl

def bodyPre3 : sProp 𝕄 :=
  iprop((dat3 V c).Φ t.castSucc ∗ (dat3 V c).owesAt () t.castSucc
    ∗ (∃ d, owns c.tc (ms3_0 t) fullShare ((dat3 V c).before 0 t d))
    ∗ (∃ d, owns c.tc (ms3_1 t) fullShare ((dat3 V c).before 1 t d))
    ∗ (∃ d, owns c.tc (ms3_2 t) fullShare ((dat3 V c).before 2 t d))
    ∗ (∃ d, owns c.tc (ms3_3 t) fullShare ((dat3 V c).before 3 t d))
    ∗ (∃ d, owns c.tc (ms3_4 t) fullShare ((dat3 V c).before 4 t d))
    ∗ (∃ d, owns c.tc (ms3_5 t) fullShare ((dat3 V c).before 5 t d))
    ∗ (∃ d, owns c.tc (ms3_6 t) fullShare ((dat3 V c).before 6 t d))
    ∗ (∃ d, owns c.tc (ms3_7 t) fullShare ((dat3 V c).before 7 t d))
    ∗ (∃ d, owns c.tc (ms3_8 t) fullShare ((dat3 V c).before 8 t d))
    ∗ (∃ d, owns c.tc (ms3_9 t) fullShare ((dat3 V c).before 9 t d))
    ∗ (∃ d, owns c.tc (ms3_10 t) fullShare ((dat3 V c).before 10 t d))
    ∗ (∃ d, owns c.tc (ms3_11 t) fullShare ((dat3 V c).before 11 t d))
    ∗ (∃ d, owns c.tc (ms3_12 t) fullShare ((dat3 V c).before 12 t d))
    ∗ (∃ d, owns c.tc (ms3_13 t) fullShare ((dat3 V c).before 13 t d))
    ∗ (∃ d, owns c.tc (ms3_14 t) fullShare ((dat3 V c).before 14 t d))
    ∗ (∃ d, owns c.tc (ms3_15 t) fullShare ((dat3 V c).before 15 t d))
    ∗ (∃ d, owns c.tc (ms3_16 t) fullShare ((dat3 V c).before 16 t d)))

def bodyPost3 : sProp 𝕄 :=
  iprop((dat3 V c).Φ t.succ ∗ (dat3 V c).owesAt () t.succ
    ∗ owns c.tc (ms3_0 t) fullShare (iblk3 V c 0 t)
    ∗ owns c.tc (ms3_1 t) fullShare (iblk3 V c 1 t)
    ∗ owns c.tc (ms3_2 t) fullShare (iblk3 V c 2 t)
    ∗ owns c.tc (ms3_3 t) fullShare (iblk3 V c 3 t)
    ∗ owns c.tc (ms3_4 t) fullShare (iblk3 V c 4 t)
    ∗ owns c.tc (ms3_5 t) fullShare (iblk3 V c 5 t)
    ∗ owns c.tc (ms3_6 t) fullShare (iblk3 V c 6 t)
    ∗ owns c.tc (ms3_7 t) fullShare (iblk3 V c 7 t)
    ∗ owns c.tc (ms3_8 t) fullShare (iblk3 V c 8 t)
    ∗ owns c.tc (ms3_9 t) fullShare (iblk3 V c 9 t)
    ∗ owns c.tc (ms3_10 t) fullShare (iblk3 V c 10 t)
    ∗ owns c.tc (ms3_11 t) fullShare (iblk3 V c 11 t)
    ∗ owns c.tc (ms3_12 t) fullShare (iblk3 V c 12 t)
    ∗ owns c.tc (ms3_13 t) fullShare (iblk3 V c 13 t)
    ∗ owns c.tc (ms3_14 t) fullShare (iblk3 V c 14 t)
    ∗ owns c.tc (ms3_15 t) fullShare (iblk3 V c 15 t)
    ∗ (dat3 V c).leavesExact 16 t)

theorem sound_body3 :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15]
  rw [show (dat3 V c).owesAt () t.succ = (dat3 V c).owesAt () t.castSucc from rfl]
  obtain ⟨n, hn⟩ := t
  rcases n with _ | n
  · rw [Dat.leavesExact_idle _ 16 _ (idleAt3_16 _ (by decide : (0 : ℕ) ≠ 49)).1 (idleAt3_16 _ (by decide : (0 : ℕ) ≠ 49)).2,
      show (dat3 V c).Φ (Fin.castSucc ⟨0, hn⟩) = _ from PhiA3_eq c,
      show (dat3 V c).Φ (Fin.succ ⟨0, hn⟩) = inv3 c (owns c.tc scM3_0 fullShare (outsAt3 V c 0 hn).2) from rfl, outsAt3_scratch_zero]
    unfold inv3
    iintro ⟨⟨⟨⟨%ds0, HS0⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
    iapply run3_A c ((hcond3_0 ⟨0, hn⟩).mpr rfl) (fun h => absurd ((hcond3_1 ⟨0, hn⟩).mp h) (by decide : (0 : ℕ) ≠ 49)) _ _ _ _
    unfold ins3
    iframe
    iintro ⟨⟨H0, H1, H2, H3, H4, H5, H6, H7, H8, H9, H10, H11, H12, H13, H14, H15⟩, H16, HS0⟩
    iframe
    iexists _; iexact H16
  · have h0 : ¬cond3_0 (grid3.coords ⟨n + 1, hn⟩) := fun h => absurd ((hcond3_0 _).mp h) (Nat.succ_ne_zero n)
    rw [show (dat3 V c).Φ (Fin.castSucc ⟨n + 1, hn⟩) = inv3 c (owns c.tc scM3_0 fullShare (outsAt3 V c n (Nat.lt_of_succ_lt hn)).2) from rfl,
      show (dat3 V c).Φ (Fin.succ ⟨n + 1, hn⟩) = inv3 c (owns c.tc scM3_0 fullShare (outsAt3 V c (n + 1) hn).2) from rfl, outsAt3_scratch_succ]
    unfold inv3
    by_cases h1 : n + 1 = 49
    · rw [show (dat3 V c).leavesExact 16 ⟨n + 1, hn⟩ = owns c.tc (ms3_16 ⟨n + 1, hn⟩) fullShare ((dat3 V c).after 16 ⟨n + 1, hn⟩) from by
        unfold Dat.leavesExact; rw [liveAt3_16 _ h1], after3_16, outsAt3_out, outsAt3_scratch_succ]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply run3_C c h0 ((hcond3_1 ⟨n + 1, hn⟩).mpr h1) _ _ _ _
      unfold ins3
      iframe
      iintro ⟨⟨H0, H1, H2, H3, H4, H5, H6, H7, H8, H9, H10, H11, H12, H13, H14, H15⟩, H16, HS0⟩
      iframe
    · rw [Dat.leavesExact_idle _ 16 _ (idleAt3_16 _ h1).1 (idleAt3_16 _ h1).2]
      iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply run3_B c h0 (fun h => h1 ((hcond3_1 ⟨n + 1, hn⟩).mp h)) _ _ _ _
      unfold ins3
      iframe
      iintro ⟨⟨H0, H1, H2, H3, H4, H5, H6, H7, H8, H9, H10, H11, H12, H13, H14, H15⟩, H16, HS0⟩
      iframe
      iexists _; iexact H16

theorem body_obligation3 (c : Dev nD) : BodyObligation (dat3 (F := F) V c) (defs₀ (F := F)) Variants.none () Set.univ := fun t => by
  rw [bigSep_W3, bigSep_W3]
  simp (disch := decide) only [Dat.leavesExact, liveAt3]
  exact sound_body3 V c t

theorem hin3 (c : Dev nD) : Pipeline.ΦA spec3 c ⊢ (dat3 V c).Φ 0 := Entails.refl _

theorem hout3 (c : Dev nD) : (dat3 V c).Φ (Fin.last cfg3.N) ⊢ Pipeline.ΦA spec3 c := by
  rw [show (dat3 V c).Φ (Fin.last cfg3.N) = inv3 c (owns c.tc scM3_0 fullShare (outsAt3 V c 49 (by decide)).2) from rfl, PhiA3_eq]
  unfold inv3
  iintro ⟨⟨HS0, HR⟩, Hg⟩
  iframe HR Hg
  iexists _; iexact HS0

end Regions

end Cert.KernelIdeal.Fr

end
-- ==== Proof.KI.Run.lean ====
import proofs.«428666_j20289425506393_1_alg».proof.Proof.KI.Regions
import proofs.«428666_j20289425506393_1_alg».proof.Proof.KI.RegA0
import proofs.«428666_j20289425506393_1_alg».proof.Proof.KI.RegA1
import proofs.«428666_j20289425506393_1_alg».proof.Proof.KI.RegA2
import proofs.«428666_j20289425506393_1_alg».proof.Proof.KI.Reg3
import Idealize.ShloMosaic.Lib.Pipeline.RegionsLoop
import Idealize.ShloMosaic.Lib.Pipeline.FrameSuffix

noncomputable section

namespace Cert.KernelIdeal.Fr

open Cert.KernelIdeal.Gen Cert.KernelIdeal.GenP
open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {cfg : Cfg sig Λ₀} (W : Dev nD → Valuation τ sig (Elt F)) (d : (c : Dev nD) → Dat τ (Elt F) Unit ℕ (UR sig nD τ) ℕ cfg c)
  (hi : Function.Injective (arrRef cfg.spec)) (c : Dev nD)

/-- The valuation at a region's exit, from the one at its entry. -/
abbrev upd : Valuation τ sig (Elt F) := withArrays cfg.spec c (W c) fun w => (d c).arrAt w cfg.N

include hi in
theorem upd_arr (w : Fin cfg.W) : upd W d c (Proc.devRef .tc (arrRef cfg.spec w)) = (d c).arrAt w cfg.N :=
  withArrays_arr _ hi c _ _ w

include hi in
/-- Only the output array `o` changes: an input window's `arrAt` is its `A`, which is read off `W`. -/
theorem upd_keep (hA : ∀ c w, (d c).A w = W c (arrRef cfg.spec w)) (o : Ref sig .tc)
    (ho : ∀ w, arrRef cfg.spec w ≠ o → (cfg.win w).isOut = false) (b : Ref sig .tc) (hb : b ≠ o) :
    upd W d c (Proc.devRef .tc b) = W c (Proc.devRef .tc b) := by
  by_cases h : ∃ w, arrRef cfg.spec w = b
  · obtain ⟨w, rfl⟩ := h
    exact (upd_arr W d hi c w).trans (((d c).arrAt_in w (ho w hb) _).trans (hA c w))
  · exact withArrays_of_ne _ c _ _ b fun w e => h ⟨w, e⟩
end

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 : Dev nD → Valuation τ sig (Elt F) := upd (W1 m ρ) (dat0 (V1 m ρ))
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 : Dev nD → Valuation τ sig (Elt F) := upd (W3 m ρ) (dat1 (V3 m ρ))
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 : Dev nD → Valuation τ sig (Elt F) := upd (W5 m ρ) (dat2 (V5 m ρ))
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
def W8 : Dev nD → Valuation τ sig (Elt F) := upd (W7 m ρ) (dat3 (V7 m ρ))

variable (c : Dev nD) (b : Ref sig .tc)

theorem W2_out : W2 m ρ c (Proc.devRef .tc main_v16) = (dat0 (V1 m ρ) c).arrAt 6 cfg0.N := upd_arr _ _ launch0.win.arr_inj c 6
theorem W4_out : W4 m ρ c (Proc.devRef .tc main_v29) = (dat1 (V3 m ρ) c).arrAt 6 cfg1.N := upd_arr _ _ launch1.win.arr_inj c 6
theorem W6_out : W6 m ρ c (Proc.devRef .tc main_v42) = (dat2 (V5 m ρ) c).arrAt 6 cfg2.N := upd_arr _ _ launch2.win.arr_inj c 6
theorem W8_out : W8 m ρ c (Proc.devRef .tc main_v54) = (dat3 (V7 m ρ) c).arrAt 16 cfg3.N := upd_arr _ _ launch3.win.arr_inj c 16

theorem W2_keep (hb : b ≠ main_v16) : W2 m ρ c (Proc.devRef .tc b) = W1 m ρ c (Proc.devRef .tc b) :=
  upd_keep _ _ launch0.win.arr_inj c (A_eq0 _) _ (by decide) b hb
theorem W4_keep (hb : b ≠ main_v29) : W4 m ρ c (Proc.devRef .tc b) = W3 m ρ c (Proc.devRef .tc b) :=
  upd_keep _ _ launch1.win.arr_inj c (A_eq1 _) _ (by decide) b hb
theorem W6_keep (hb : b ≠ main_v42) : W6 m ρ c (Proc.devRef .tc b) = W5 m ρ c (Proc.devRef .tc b) :=
  upd_keep _ _ launch2.win.arr_inj c (A_eq2 _) _ (by decide) b hb
theorem W8_keep (hb : b ≠ main_v54) : W8 m ρ c (Proc.devRef .tc b) = W7 m ρ c (Proc.devRef .tc b) :=
  upd_keep _ _ launch3.win.arr_inj c (A_eq3 _) _ (by decide) b hb

theorem W8_of_arg (h0 : b ∉ hostOps0_W) (h1 : b ∉ hostOps1_W) (h2 : b ∉ hostOps2_W) (h3 : b ∉ hostOps3_W)
    (hv : b ≠ main_v16 ∧ b ≠ main_v29 ∧ b ≠ main_v42 ∧ b ≠ main_v54) :
    W8 m ρ c (Proc.devRef .tc b) = m ((c : Thread nD τ).loc b) :=
  (W8_keep m ρ c b hv.2.2.2).trans <| (StableHlo.after_of_writes_sub hostOps3 _ hostOps3_writes h3).trans <|
  (W6_keep m ρ c b hv.2.2.1).trans <| (StableHlo.after_of_writes_sub hostOps2 _ hostOps2_writes h2).trans <|
  (W4_keep m ρ c b hv.2.1).trans <| (StableHlo.after_of_writes_sub hostOps1 _ hostOps1_writes h1).trans <|
  (W2_keep m ρ c b hv.1).trans <| StableHlo.after_of_writes_sub hostOps0 _ hostOps0_writes h0

theorem mem_uc (h : ¬ (Proc.devRef .tc b : DevRef τ sig).isScoped) : Proc.devRef .tc b ∈ Pipeline.ucRefs τ sig :=
  Finset.mem_filter.mpr ⟨StableHlo.devRef_mem_tcRefs b, h⟩

abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev T (W : Dev nD → Valuation τ sig (Elt F)) (c : Dev nD) : sProp 𝕄 := iprop(StableHlo.held (c : Thread nD τ) (ucRefs τ sig) (W c) ∗ R c)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  .ofOps _ _ _ _ _ (ucRefs τ sig) ops (fun op h => sub_ucRefs op (List.forall_iff_forall_mem.mp hsub op h))
    (List.forall_iff_forall_mem.mp hfresh) W R

/-- Region `p` carries the state `T W` to `T (upd W _)`, for any data whose arrays are read off `W`. -/
def reg (pd : (p : Fin 4) → (c : Dev nD) → Dat τ (Elt F) Unit ℕ (UR sig nD τ) ℕ (pin (pcfgs (F := F)) adm p) c)
    (p : Fin 4) (lf : LaunchFacts (nD := nD) (τ := τ) cfgs p) (W : Dev nD → Valuation τ sig (Elt F))
    (hb : ∀ c, BodyObligation (pd p c) defs₀ 𝒱₀ () Set.univ) (hA : ∀ c w, (pd p c).A w = W c (arrRef (cfgs p).spec w))
    (hi : ∀ c, ΦA (cfgs p).spec c ⊢ (pd p c).Φ 0 := by exact fun _ => .rfl)
    (hO : ∀ c, (pd p c).Φ (Fin.last _) ⊢ ΦA (cfgs p).spec c := by exact fun _ => .rfl)
    (ho : ∀ c t, (pd p c).owed t = 0 := by exact fun _ _ => rfl) (hr : ∀ c, (pd p c).recorded 0 = Set.univ := by exact fun _ => rfl)
    (hq : ∀ c w, (pd p c).q w = fullShare := by exact fun _ _ => rfl) :
    RegionSeg (pcfgs (F := F)) adm pd () defs₀ 𝒱₀ L lv p where
  win := lf.win.to₀
  block_pos := lf.block_pos
  stage_whole := lf.stage_whole
  K := PEmpty
  osem k := k.elim
  ho := .none _
  hbody c := (hb c).loose
  hwaits := hwaits_of_owed_zero _ _ _ _ L lv p ho
  pre := T W
  post := T (upd W (pd p))
  X c := iprop(∃ r, prngReg c r)
  Y c := iprop(∃ r, prngReg c r)
  Z c := unscopedRest (cfgs p).spec c (W c ·)
  hentry c := by
    have hs := arrays_of_unscopedBufs (pcfgs (F := F)) adm pd lf.win lf.arr_whole c ((pd p c).share_full (hq c)) (W c ·) (hA c)
    rw [unscopedBufs_held] at hs
    unfold Dat.owesAt owesWithin prefHeld
    rw [ho c 0, show (Finset.univ : Finset (Fin 0)) = ∅ from rfl, BI.bigSep_empty]
    iintro ⟨⟨Hu, Hp, %V, HO⟩, -, -⟩
    icases hs $$ Hu with ⟨Ha, Hr⟩
    imodintro
    iframe Ha Hp Hr
    isplitr; · iempintro
    iexists V; iframe HO
    ipureintro; exact fun x _ => .inl (hr c ▸ Set.mem_univ x)
  hin c := .trans (by unfold ΦA; iintro ⟨Hp, -, Hr⟩; iframe) (hi c)
  hout c := (hO c).trans (by rw [ownSems0_none]; unfold ΦA; iintro ⟨Hr, Hp⟩; iframe; iempintro)
  hexit c := by
    have hj := unscopedBufs_of_arrays (p := p) (pcfgs (F := F)) adm lf.win lf.arr_whole c pd ((pd p c).share_full (hq c)) (W c ·)
      (upd W (pd p) c ·) ((pd p c).arrAt · (cfgs p).N) (fun w => (upd_arr _ _ lf.win.arr_inj c w).symm)
      fun b hb => withArrays_of_ne _ c _ _ b fun w e => hb (Finset.mem_image.mpr ⟨w, Finset.mem_univ _, e⟩)
    rw [unscopedBufs_held] at hj
    unfold Dat.owesAt owesWithin
    rw [ho c]
    iintro ⟨Ha, ⟨%V, -, HO⟩, HY, Hr⟩
    imodintro
    isplitl [Ha Hr]; · iapply hj; iframe
    isplitl [HY]; · iexact HY
    iexists V; iexact HO

def pdats : (p : Fin 4) → (c : Dev nD) → Dat τ (Elt F) Unit ℕ (UR sig nD τ) ℕ (pin (pcfgs (F := F)) adm p) c
  | ⟨0, _⟩ => dat0 (V1 m ρ)
  | ⟨1, _⟩ => dat1 (V3 m ρ)
  | ⟨2, _⟩ => dat2 (V5 m ρ)
  | ⟨3, _⟩ => dat3 (V7 m ρ)

abbrev segs : List (Seg (pcfgs (F := F)) adm (pdats m ρ) () defs₀ 𝒱₀ L lv) :=
  [ .host (hseg hostOps0 hostOps0_sub hostOps0_fresh (W0 m ρ)), .region (reg _ 0 launch0 (W1 m ρ) (body_obligation0 _) (A_eq0 _)),
    .host (hseg hostOps1 hostOps1_sub hostOps1_fresh (W2 m ρ)), .region (reg _ 1 launch1 (W3 m ρ) (body_obligation1 _) (A_eq1 _)),
    .host (hseg hostOps2 hostOps2_sub hostOps2_fresh (W4 m ρ)), .region (reg _ 2 launch2 (W5 m ρ) (body_obligation2 _) (A_eq2 _)),
    .host (hseg hostOps3 hostOps3_sub hostOps3_fresh (W6 m ρ)),
    .region (reg _ 3 launch3 (W7 m ρ) (body_obligation3 _) (A_eq3 _) (hin3 _) (hout3 _)) ]

theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  θ_run_regions_kit (pcfgs (F := F)) adm (pdats m ρ) () cellOf_inj emb₁ defs₀ 𝒱₀ L lv m ρ main (segs m ρ)
    (fun c Q => by rw [(main_chain c).trans (by chain_rfl : _ = Seg.run (segs m ρ))])
    (by simp only [segs, Seg.pipes_host, Seg.pipes_region, Seg.pipes_nil]; decide)
    (O₀ := 0) (hL := fun _ _ => rfl) (G := fun _ => BI.emp) (u₀ := initOf (cells cfgs cellOf_inj) (launchToks cfgs cellOf_inj))
    (hu₀ := by rw [BI.bigSep_emp_const]; exact sep_emp.2.trans fupd_intro)
    (T₀ := T (W0 m ρ)) (Tₙ := fun c => iprop(StableHlo.held (c : Thread nD τ) (ucRefs τ sig) (W8 m ρ c) ∗ ∃ r, prngReg c r))
    (hch := by and_intros <;> first | exact fun _ => .rfl | exact fun _ => sep_assoc')
    (hinit := by
      refine initEach L lv fun c => ?_
      rw [show unscopedBufs c (fun b => m ((c : Thread nD τ).loc b)) = StableHlo.held (c : Thread nD τ) (ucRefs τ sig) (W0 m ρ c)
        from unscopedBufs_held c (W0 m ρ c)]
      iintro ⟨⟨Hh, -, HO, -, Hp, -⟩, -⟩
      imodintro
      isplitl [Hh]; · iexact Hh
      isplitl [Hp] <;> iexists _ <;> iassumption)
    (QY := fun c s => ∀ b ∈ ucRefs τ sig, s.mem (((c : Thread nD τ)).1, b) = W8 m ρ c b)
    (hfin := fun c s' => by
      iintro ⟨⟨Hh, -⟩, HSI⟩
      unfold StableHlo.held
      imodintro
      iapply (pointsTo_read_all (ucRefs τ sig) (fun b => (((c : Thread nD τ)).1, b)) (W8 m ρ c) s')
      iframe)
    (hQ := fun _ h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => by
    and_intros <;> exact (h c _ (mem_uc _ (by decide))).trans (W8_of_arg m ρ c _ (by decide) (by decide) (by decide) (by decide) (by decide)))
    (run_main m ρ)

end Cert.KernelIdeal.Fr

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev N7 : Shape := ⟨2, ![100000, 7]⟩
abbrev N128 : Shape := ⟨2, ![100000, 128]⟩
abbrev W7 : Shape := ⟨2, ![7, 128]⟩
abbrev W128 : Shape := ⟨2, ![128, 128]⟩
abbrev P128 : Shape := ⟨2, ![256, 128]⟩
abbrev C1 : Shape := ⟨2, ![128, 256]⟩
abbrev C2 : Shape := ⟨2, ![256, 2]⟩
abbrev O2 : Shape := ⟨2, ![256, 2]⟩

/-- The rectifier `max a 0`. -/
def relu (a : EReal) : EReal := FloatOps.maximumf (F := Ideal) (φ := .f32) a (Ideal.ofBits .f32 0x00000000#32)

/-- Hidden unit `k` of the first layer at node `n`: `relu (∑ l, (x n l + agg n l) · Wa l k + ba k)`. -/
def hid7 (x agg : FVec Ideal N7 .f32) (Wa : FVec Ideal W7 .f32) (ba : Fin 128 → EReal) (n : Fin 100000) (k : Fin 128) : EReal :=
  relu (FloatOps.addf (F := Ideal) (φ := .f32) (∑ l : Fin 7, FloatOps.addf (F := Ideal) (φ := .f32) (x (ix2 n l)) (agg (ix2 n l)) * Wa (ix2 l k)) (ba k))

/-- The first layer at `(n, j)`: `relu (∑ k, hid n k · Wb k j + bb j)`. -/
def layer7 (x agg : FVec Ideal N7 .f32) (Wa : FVec Ideal W7 .f32) (ba : Fin 128 → EReal) (Wb : FVec Ideal W128 .f32)
    (bb : Fin 128 → EReal) : FVec Ideal N128 .f32 :=
  fun i => relu (FloatOps.addf (F := Ideal) (φ := .f32) (∑ k : Fin 128, hid7 x agg Wa ba (i 0) k * Wb (ix2 k (i 1))) (bb (i 1)))

/-- The same hidden unit over 128 input features. -/
def hid128 (x agg : FVec Ideal N128 .f32) (Wa : FVec Ideal W128 .f32) (ba : Fin 128 → EReal) (n : Fin 100000) (k : Fin 128) : EReal :=
  relu (FloatOps.addf (F := Ideal) (φ := .f32) (∑ l : Fin 128, FloatOps.addf (F := Ideal) (φ := .f32) (x (ix2 n l)) (agg (ix2 n l)) * Wa (ix2 l k)) (ba k))

/-- The same layer over 128 input features. -/
def layer128 (x agg : FVec Ideal N128 .f32) (Wa : FVec Ideal W128 .f32) (ba : Fin 128 → EReal) (Wb : FVec Ideal W128 .f32)
    (bb : Fin 128 → EReal) : FVec Ideal N128 .f32 :=
  fun i => relu (FloatOps.addf (F := Ideal) (φ := .f32) (∑ k : Fin 128, hid128 x agg Wa ba (i 0) k * Wb (ix2 k (i 1))) (bb (i 1)))

/-- Three matrix products added left to right, plus the bias. -/
def jk (x1 x2 x3 : FVec Ideal N128 .f32) (w1 w2 w3 : FVec Ideal W128 .f32) (b : Fin 128 → EReal) : FVec Ideal N128 .f32 :=
  fun i => FloatOps.addf (F := Ideal) (φ := .f32)
    (FloatOps.addf (F := Ideal) (φ := .f32)
      (FloatOps.addf (F := Ideal) (φ := .f32) (∑ k : Fin 128, x1 (ix2 (i 0) k) * w1 (ix2 k (i 1))) (∑ k : Fin 128, x2 (ix2 (i 0) k) * w2 (ix2 k (i 1))))
      (∑ k : Fin 128, x3 (ix2 (i 0) k) * w3 (ix2 k (i 1))))
    (b (i 1))

/-- The rows of `h` summed per graph label; a label outside `[0, 256)` contributes to no graph. -/
def pool (h : FVec Ideal N128 .f32) (label : Fin 100000 → BitVec 32) : FVec Ideal P128 .f32 :=
  fun i => ∑ n : Fin 100000, if (label n).toInt = ((i 0).val : ℤ) then h (ix2 n (i 1)) else 0

/-- `relu ((z - mean) · rsqrt (var + ε) · γ + β)` of the dense map `z` of the pooled row. -/
def clsHid (p : FVec Ideal P128 .f32) (Wc1 : FVec Ideal C1 .f32) (bc1 gamma beta rmean rvar : Fin 256 → EReal) (g : Fin 256) (k : Fin 256) : EReal :=
  relu (FloatOps.addf (F := Ideal) (φ := .f32)
    (FloatOps.mulf (F := Ideal) (φ := .f32)
      (FloatOps.mulf (F := Ideal) (φ := .f32)
        (FloatOps.subf (F := Ideal) (φ := .f32) (FloatOps.addf (F := Ideal) (φ := .f32) (∑ l : Fin 128, p (ix2 g l) * Wc1 (ix2 l k)) (bc1 k)) (rmean k))
        (FloatOps.rsqrt (F := Ideal) (φ := .f32) (FloatOps.addf (F := Ideal) (φ := .f32) (rvar k) (Ideal.ofBits .f32 0x3727C5AC#32))))
      (gamma k))
    (beta k))

/-- The classifier's output layer over its hidden units. -/
def cls (p : FVec Ideal P128 .f32) (Wc1 : FVec Ideal C1 .f32) (bc1 gamma beta rmean rvar : Fin 256 → EReal) (Wc2 : FVec Ideal C2 .f32)
    (bc2 : Fin 2 → EReal) : FVec Ideal O2 .f32 :=
  fun i => FloatOps.addf (F := Ideal) (φ := .f32) (∑ k : Fin 256, clsHid p Wc1 bc1 gamma beta rmean rvar (i 0) k * Wc2 (ix2 k (i 1))) (bc2 (i 1))

abbrev E2 : Shape := ⟨2, ![2, 1600000]⟩
abbrev L1 : Shape := ⟨1, ![100000]⟩
abbrev B128 : Shape := ⟨1, ![128]⟩
abbrev B256 : Shape := ⟨1, ![256]⟩
abbrev B2 : Shape := ⟨1, ![2]⟩
abbrev J384 : Shape := ⟨2, ![384, 128]⟩

/-- Rows `[128 s, 128 s + 128)` of the projection's weight matrix. -/
def wjkSlice (s : Fin 3) (Wjk : FVec Ideal J384 .f32) : FVec Ideal W128 .f32 :=
  fun j => Wjk (ix2 ⟨128 * s.val + (j 0).val, by have h0 : (j 0).val < 128 := (j 0).isLt; have := s.isLt; omega⟩ (j 1))

/-- The whole network as a function of its arguments, the two neighbour aggregations given as parameters. -/
def out (agg7 : FVec Ideal N7 .f32 → IVec E2 32 → FVec Ideal N7 .f32) (agg128 : FVec Ideal N128 .f32 → IVec E2 32 → FVec Ideal N128 .f32)
    (x : FVec Ideal N7 .f32) (ei : IVec E2 32) (batch : IVec L1 32)
    (W0a : FVec Ideal W7 .f32) (b0a : FVec Ideal B128 .f32) (W0b : FVec Ideal W128 .f32) (b0b : FVec Ideal B128 .f32)
    (W1a : FVec Ideal W128 .f32) (b1a : FVec Ideal B128 .f32) (W1b : FVec Ideal W128 .f32) (b1b : FVec Ideal B128 .f32)
    (W2a : FVec Ideal W128 .f32) (b2a : FVec Ideal B128 .f32) (W2b : FVec Ideal W128 .f32) (b2b : FVec Ideal B128 .f32)
    (Wjk : FVec Ideal J384 .f32) (bjk : FVec Ideal B128 .f32) (Wc1 : FVec Ideal C1 .f32) (bc1 gamma beta rmean rvar : FVec Ideal B256 .f32)
    (Wc2 : FVec Ideal C2 .f32) (bc2 : FVec Ideal B2 .f32) : FVec Ideal O2 .f32 :=
  let X1 := layer7 x (agg7 x ei) W0a (fun k => b0a (ix1 k)) W0b (fun k => b0b (ix1 k))
  let X2 := layer128 X1 (agg128 X1 ei) W1a (fun k => b1a (ix1 k)) W1b (fun k => b1b (ix1 k))
  let X3 := layer128 X2 (agg128 X2 ei) W2a (fun k => b2a (ix1 k)) W2b (fun k => b2b (ix1 k))
  cls (pool (jk X1 X2 X3 (wjkSlice 0 Wjk) (wjkSlice 1 Wjk) (wjkSlice 2 Wjk) (fun k => bjk (ix1 k))) (fun n => batch (ix1 n)))
    Wc1 (fun k => bc1 (ix1 k)) (fun k => gamma (ix1 k)) (fun k => beta (ix1 k)) (fun k => rmean (ix1 k)) (fun k => rvar (ix1 k))
    Wc2 (fun k => bc2 (ix1 k))

end Cert.Spec

end
-- ==== Proof.KI.ValA0.lean ====
import proofs.«428666_j20289425506393_1_alg».proof.Proof.KI.RegA0
import proofs.«428666_j20289425506393_1_alg».proof.Proof.Spec
import Idealize.ShloMosaic.Lib.Pipeline.Value
import Idealize.ShloMosaic.Lib.ValueLayout
import Idealize.ShloMosaic.Lib.StackMember

noncomputable section

namespace Cert.KernelIdeal.Val

open Cert.KernelIdeal Cert.KernelIdeal.Gen Cert.KernelIdeal.GenP Cert.KernelIdeal.Fr
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- A plain matrix product added to the zero matrix is, entry by entry, the sum over the contracted coordinate. -/
private theorem mm_apply {m k n : ℕ} {φ₁ φ₂ : FTy} (d : DotDims ⟨2, ![m, k]⟩ ⟨2, ![k, n]⟩ ⟨2, ![m, n]⟩) (hd : d = .plain m k n)
    (prec : Option ContractPrecision) (A : FVec Ideal ⟨2, ![m, k]⟩ φ₁) (B : FVec Ideal ⟨2, ![k, n]⟩ φ₂) (a : Fin m) (b : Fin n) :
    FloatOps.matmul d prec A B (constant (F := Ideal) ⟨2, ![m, n]⟩ .f32 0x00000000#32) (ix2 a b) = ∑ c : Fin k, A (ix2 a c) * B (ix2 c b) := by
  subst hd
  rw [Ideal.matmul_constant_zero_apply]
  exact (Ideal.dotGeneral_apply _ prec _ A B _).symm.trans (StackMember.dotGeneral_plain_apply prec A B a b)

/-- If two row blocks agree at row `p` with two arrays at row `n`, and the weights agree entrywise, the computed block at row `p` is the layer at row `n`. -/
theorem pay0_eq {x0 x1 : Vec Ideal S2000x7 .f32} {x2 : Vec Ideal S7x128 .f32} {x3 x5 : Vec Ideal S1x128 .f32} {x4 : Vec Ideal S128x128 .f32}
    {A0 A1 : FVec Ideal Cert.Spec.N7 .f32} {A2 : FVec Ideal Cert.Spec.W7 .f32} {A3 A5 : FVec Ideal S1x128 .f32} {A4 : FVec Ideal Cert.Spec.W128 .f32}
    {p : Fin 2000} {n : Fin 100000} (h0 : ∀ l, x0 (ix2 p l) = A0 (ix2 n l)) (h1 : ∀ l, x1 (ix2 p l) = A1 (ix2 n l))
    (h2 : ∀ l k, x2 (ix2 l k) = A2 (ix2 l k)) (h3 : ∀ k, x3 (ix2 0 k) = A3 (ix2 0 k)) (h4 : ∀ k q, x4 (ix2 k q) = A4 (ix2 k q))
    (h5 : ∀ k, x5 (ix2 0 k) = A5 (ix2 0 k)) (q : Fin 128) :
    k0_pay1 (F := Ideal) x0 x1 x2 x3 x4 x5 (ix2 p q)
      = Cert.Spec.layer7 A0 A1 A2 (fun k => A3 (ix2 0 k)) A4 (fun k => A5 (ix2 0 k)) (ix2 n q) := by
  unfold k0_pay1
  simp only [maximumf_apply, addf_apply, truncf_apply, broadcast_apply, shapeCast_self, broadcastTo_1b_ab_apply,
    mm_apply dot_S2000x7_S7x128_S2000x128_1_0_0_1_n_n rfl, mm_apply dot_S2000x128_S128x128_S2000x128_1_0_0_1_n_n rfl, h0, h1, h2, h3, h4, h5]
  rfl

abbrev arr0_0 : Ref sig .tc := main_arg0
abbrev arr0_1 : Ref sig .tc := main_v13
abbrev arr0_2 : Ref sig .tc := main_arg4
abbrev arr0_3 : Ref sig .tc := main_v14
abbrev arr0_4 : Ref sig .tc := main_arg6
abbrev arr0_5 : Ref sig .tc := main_v15

theorem idx_facts0 : ∀ t : Fin cfg0.N, win0_0.index t (0 : Fin 2) = win0_6.index t (0 : Fin 2)
    ∧ win0_0.index t (1 : Fin 2) = 0
    ∧ win0_1.index t (0 : Fin 2) = win0_6.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 49 ∧ win0_6.index t (1 : Fin 2) = 0 :=
  (by decide +kernel : ∀ t : Fin grid0.N, _)

theorem idx_onto0 : ∀ (q0 : Fin 50), ∃ t : Fin cfg0.N, win0_6.index t = ![q0.val, 0] :=
  (by decide +kernel : ∀ (q0 : Fin 50), ∃ t : Fin grid0.N, win0_6.index t = ![q0.val, 0])

/-- Row block `t` of the array is row block `t` of the layer, and the 50 row blocks cover the rows. -/
theorem arrAt0_eq (c : Dev nD) : (dat0 (F := Ideal) V c).arrAt 6 cfg0.N
    = Cert.Spec.layer7 (V c arr0_0) (V c arr0_1) (V c arr0_2) (fun k => V c arr0_3 (ValueIdx.ix2 0 k)) (V c arr0_4) (fun k => V c arr0_5 (ValueIdx.ix2 0 k)) := by
  refine (dat0 (F := Ideal) V c).arrAt_eq_of_cover 6 _ (fun t _ => ?_) fun (i : S100000x128.Idx) => ?_
  · show (cfg0.win 6).cut (grid0.coords t) ((dat0 (F := Ideal) V c).after 6 t) = _
    rw [after0_6, out0_6_eq]
    obtain ⟨e00, e01, e10, e11, e20, e21, e30, e31, e40, e41, e50, e51, b60, e61⟩ := idx_facts0 t
    funext j
    obtain ⟨p, q, rfl⟩ : ∃ (p : Fin 2000) (q : Fin 128), j = ix2 p q := ⟨j 0, j 1, eq_ix2 j⟩
    have hp := p.isLt
    have hemb : ((cfg0.win 6).blk t).view.emb (ix2 p q) = ix2 (⟨win0_6.index t (0 : Fin 2) * 2000 + p.val, by omega⟩ : Fin 100000) q :=
      Shape.idx_ext₂ (by show win0_6.index t (0 : Fin 2) * 2000 + 1 * p.val = win0_6.index t (0 : Fin 2) * 2000 + p.val; omega)
        (by show win0_6.index t (1 : Fin 2) * 128 + 1 * q.val = q.val; omega)
    show k0_pay1 (F := Ideal) (iblk0 V c 0 t) (iblk0 V c 1 t) (iblk0 V c 2 t) (iblk0 V c 3 t) (iblk0 V c 4 t) (iblk0 V c 5 t) (ix2 p q)
      = Cert.Spec.layer7 (V c arr0_0) (V c arr0_1) (V c arr0_2) (fun k => V c arr0_3 (ix2 0 k)) (V c arr0_4) (fun k => V c arr0_5 (ix2 0 k))
        (((cfg0.win 6).blk t).view.emb (ix2 p q))
    rw [hemb]
    exact pay0_eq
      (fun l => show V c arr0_0 (((cfg0.win 0).blk t).view.emb (ix2 p l)) = _ from congrArg (V c arr0_0) (Shape.idx_ext₂
        (by show win0_0.index t (0 : Fin 2) * 2000 + 1 * p.val = win0_6.index t (0 : Fin 2) * 2000 + p.val; omega) (by show win0_0.index t (1 : Fin 2) * 7 + 1 * l.val = l.val; omega)))
      (fun l => show V c arr0_1 (((cfg0.win 1).blk t).view.emb (ix2 p l)) = _ from congrArg (V c arr0_1) (Shape.idx_ext₂
        (by show win0_1.index t (0 : Fin 2) * 2000 + 1 * p.val = win0_6.index t (0 : Fin 2) * 2000 + p.val; omega) (by show win0_1.index t (1 : Fin 2) * 7 + 1 * l.val = l.val; omega)))
      (fun l k => show V c arr0_2 (((cfg0.win 2).blk t).view.emb (ix2 l k)) = _ from congrArg (V c arr0_2) (Shape.idx_ext₂
        (by show win0_2.index t (0 : Fin 2) * 7 + 1 * l.val = l.val; omega) (by show win0_2.index t (1 : Fin 2) * 128 + 1 * k.val = k.val; omega)))
      (fun k => show V c arr0_3 (((cfg0.win 3).blk t).view.emb (ix2 0 k)) = _ from congrArg (V c arr0_3) (Shape.idx_ext₂
        (by show win0_3.index t (0 : Fin 2) * 1 + 1 * 0 = 0; omega) (by show win0_3.index t (1 : Fin 2) * 128 + 1 * k.val = k.val; omega)))
      (fun k q => show V c arr0_4 (((cfg0.win 4).blk t).view.emb (ix2 k q)) = _ from congrArg (V c arr0_4) (Shape.idx_ext₂
        (by show win0_4.index t (0 : Fin 2) * 128 + 1 * k.val = k.val; omega) (by show win0_4.index t (1 : Fin 2) * 128 + 1 * q.val = q.val; omega)))
      (fun k => show V c arr0_5 (((cfg0.win 5).blk t).view.emb (ix2 0 k)) = _ from congrArg (V c arr0_5) (Shape.idx_ext₂
        (by show win0_5.index t (0 : Fin 2) * 1 + 1 * 0 = 0; omega) (by show win0_5.index t (1 : Fin 2) * 128 + 1 * k.val = k.val; omega))) q
  · have hi0 : (i 0).val < 100000 := (i 0).isLt
    have hi1 : (i 1).val < 128 := (i 1).isLt
    obtain ⟨t, ht⟩ := idx_onto0 ⟨(i 0).val / 2000, by omega⟩
    have q0 : win0_6.index t (0 : Fin 2) = (i 0).val / 2000 := congrFun ht 0
    have q1 : win0_6.index t (1 : Fin 2) = 0 := congrFun ht 1
    refine ⟨t, flush0_6 t, ?_⟩
    show i ∈ ((View.whole main_v16).slice (win0_6.rect t)).set
    rw [View.set_slice_whole, Rect.mem_set_unit]
    intro a
    match a with
    | ⟨0, _⟩ => show win0_6.index t (0 : Fin 2) * 2000 ≤ (i 0).val ∧ (i 0).val < win0_6.index t (0 : Fin 2) * 2000 + 2000; omega
    | ⟨1, _⟩ => show win0_6.index t (1 : Fin 2) * 128 ≤ (i 1).val ∧ (i 1).val < win0_6.index t (1 : Fin 2) * 128 + 128; omega

end Cert.KernelIdeal.Val

end
-- ==== Proof.KI.ValA1.lean ====
import proofs.«428666_j20289425506393_1_alg».proof.Proof.KI.RegA1
import proofs.«428666_j20289425506393_1_alg».proof.Proof.Spec
import Idealize.ShloMosaic.Lib.Pipeline.Value
import Idealize.ShloMosaic.Lib.ValueLayout
import Idealize.ShloMosaic.Lib.StackMember

noncomputable section

namespace Cert.KernelIdeal.Val

open Cert.KernelIdeal Cert.KernelIdeal.Gen Cert.KernelIdeal.GenP Cert.KernelIdeal.Fr
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- A plain matrix product added to the zero matrix is, entry by entry, the sum over the contracted coordinate. -/
private theorem mm_apply {m k n : ℕ} {φ₁ φ₂ : FTy} (d : DotDims ⟨2, ![m, k]⟩ ⟨2, ![k, n]⟩ ⟨2, ![m, n]⟩) (hd : d = .plain m k n)
    (prec : Option ContractPrecision) (A : FVec Ideal ⟨2, ![m, k]⟩ φ₁) (B : FVec Ideal ⟨2, ![k, n]⟩ φ₂) (a : Fin m) (b : Fin n) :
    FloatOps.matmul d prec A B (constant (F := Ideal) ⟨2, ![m, n]⟩ .f32 0x00000000#32) (ix2 a b) = ∑ c : Fin k, A (ix2 a c) * B (ix2 c b) := by
  subst hd
  rw [Ideal.matmul_constant_zero_apply]
  exact (Ideal.dotGeneral_apply _ prec _ A B _).symm.trans (StackMember.dotGeneral_plain_apply prec A B a b)

/-- If two row blocks agree at row `p` with two arrays at row `n`, and the weights agree entrywise, the computed block at row `p` is the layer at row `n`. -/
theorem pay1_eq {x0 x1 : Vec Ideal S2000x128 .f32} {x2 : Vec Ideal S128x128 .f32} {x3 x5 : Vec Ideal S1x128 .f32} {x4 : Vec Ideal S128x128 .f32}
    {A0 A1 : FVec Ideal Cert.Spec.N128 .f32} {A2 : FVec Ideal Cert.Spec.W128 .f32} {A3 A5 : FVec Ideal S1x128 .f32} {A4 : FVec Ideal Cert.Spec.W128 .f32}
    {p : Fin 2000} {n : Fin 100000} (h0 : ∀ l, x0 (ix2 p l) = A0 (ix2 n l)) (h1 : ∀ l, x1 (ix2 p l) = A1 (ix2 n l))
    (h2 : ∀ l k, x2 (ix2 l k) = A2 (ix2 l k)) (h3 : ∀ k, x3 (ix2 0 k) = A3 (ix2 0 k)) (h4 : ∀ k q, x4 (ix2 k q) = A4 (ix2 k q))
    (h5 : ∀ k, x5 (ix2 0 k) = A5 (ix2 0 k)) (q : Fin 128) :
    k1_pay1 (F := Ideal) x0 x1 x2 x3 x4 x5 (ix2 p q)
      = Cert.Spec.layer128 A0 A1 A2 (fun k => A3 (ix2 0 k)) A4 (fun k => A5 (ix2 0 k)) (ix2 n q) := by
  unfold k1_pay1
  simp only [maximumf_apply, addf_apply, truncf_apply, broadcast_apply, shapeCast_self, broadcastTo_1b_ab_apply,
    mm_apply dot_S2000x128_S128x128_S2000x128_1_0_0_1_n_n rfl, h0, h1, h2, h3, h4, h5]
  rfl

abbrev arr1_0 : Ref sig .tc := main_v16
abbrev arr1_1 : Ref sig .tc := main_v26
abbrev arr1_2 : Ref sig .tc := main_arg8
abbrev arr1_3 : Ref sig .tc := main_v27
abbrev arr1_4 : Ref sig .tc := main_arg10
abbrev arr1_5 : Ref sig .tc := main_v28

theorem idx_facts1 : ∀ t : Fin cfg1.N, win1_0.index t (0 : Fin 2) = win1_6.index t (0 : Fin 2)
    ∧ win1_0.index t (1 : Fin 2) = 0
    ∧ win1_1.index t (0 : Fin 2) = win1_6.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 49 ∧ win1_6.index t (1 : Fin 2) = 0 :=
  (by decide +kernel : ∀ t : Fin grid1.N, _)

theorem idx_onto1 : ∀ (q0 : Fin 50), ∃ t : Fin cfg1.N, win1_6.index t = ![q0.val, 0] :=
  (by decide +kernel : ∀ (q0 : Fin 50), ∃ t : Fin grid1.N, win1_6.index t = ![q0.val, 0])

/-- Row block `t` of the array is row block `t` of the layer, and the 50 row blocks cover the rows. -/
theorem arrAt1_eq (c : Dev nD) : (dat1 (F := Ideal) V c).arrAt 6 cfg1.N
    = Cert.Spec.layer128 (V c arr1_0) (V c arr1_1) (V c arr1_2) (fun k => V c arr1_3 (ValueIdx.ix2 0 k)) (V c arr1_4) (fun k => V c arr1_5 (ValueIdx.ix2 0 k)) := by
  refine (dat1 (F := Ideal) V c).arrAt_eq_of_cover 6 _ (fun t _ => ?_) fun (i : S100000x128.Idx) => ?_
  · show (cfg1.win 6).cut (grid1.coords t) ((dat1 (F := Ideal) V c).after 6 t) = _
    rw [after1_6, out1_6_eq]
    obtain ⟨e00, e01, e10, e11, e20, e21, e30, e31, e40, e41, e50, e51, b60, e61⟩ := idx_facts1 t
    funext j
    obtain ⟨p, q, rfl⟩ : ∃ (p : Fin 2000) (q : Fin 128), j = ix2 p q := ⟨j 0, j 1, eq_ix2 j⟩
    have hp := p.isLt
    have hemb : ((cfg1.win 6).blk t).view.emb (ix2 p q) = ix2 (⟨win1_6.index t (0 : Fin 2) * 2000 + p.val, by omega⟩ : Fin 100000) q :=
      Shape.idx_ext₂ (by show win1_6.index t (0 : Fin 2) * 2000 + 1 * p.val = win1_6.index t (0 : Fin 2) * 2000 + p.val; omega)
        (by show win1_6.index t (1 : Fin 2) * 128 + 1 * q.val = q.val; omega)
    show k1_pay1 (F := Ideal) (iblk1 V c 0 t) (iblk1 V c 1 t) (iblk1 V c 2 t) (iblk1 V c 3 t) (iblk1 V c 4 t) (iblk1 V c 5 t) (ix2 p q)
      = Cert.Spec.layer128 (V c arr1_0) (V c arr1_1) (V c arr1_2) (fun k => V c arr1_3 (ix2 0 k)) (V c arr1_4) (fun k => V c arr1_5 (ix2 0 k))
        (((cfg1.win 6).blk t).view.emb (ix2 p q))
    rw [hemb]
    exact pay1_eq
      (fun l => show V c arr1_0 (((cfg1.win 0).blk t).view.emb (ix2 p l)) = _ from congrArg (V c arr1_0) (Shape.idx_ext₂
        (by show win1_0.index t (0 : Fin 2) * 2000 + 1 * p.val = win1_6.index t (0 : Fin 2) * 2000 + p.val; omega) (by show win1_0.index t (1 : Fin 2) * 128 + 1 * l.val = l.val; omega)))
      (fun l => show V c arr1_1 (((cfg1.win 1).blk t).view.emb (ix2 p l)) = _ from congrArg (V c arr1_1) (Shape.idx_ext₂
        (by show win1_1.index t (0 : Fin 2) * 2000 + 1 * p.val = win1_6.index t (0 : Fin 2) * 2000 + p.val; omega) (by show win1_1.index t (1 : Fin 2) * 128 + 1 * l.val = l.val; omega)))
      (fun l k => show V c arr1_2 (((cfg1.win 2).blk t).view.emb (ix2 l k)) = _ from congrArg (V c arr1_2) (Shape.idx_ext₂
        (by show win1_2.index t (0 : Fin 2) * 128 + 1 * l.val = l.val; omega) (by show win1_2.index t (1 : Fin 2) * 128 + 1 * k.val = k.val; omega)))
      (fun k => show V c arr1_3 (((cfg1.win 3).blk t).view.emb (ix2 0 k)) = _ from congrArg (V c arr1_3) (Shape.idx_ext₂
        (by show win1_3.index t (0 : Fin 2) * 1 + 1 * 0 = 0; omega) (by show win1_3.index t (1 : Fin 2) * 128 + 1 * k.val = k.val; omega)))
      (fun k q => show V c arr1_4 (((cfg1.win 4).blk t).view.emb (ix2 k q)) = _ from congrArg (V c arr1_4) (Shape.idx_ext₂
        (by show win1_4.index t (0 : Fin 2) * 128 + 1 * k.val = k.val; omega) (by show win1_4.index t (1 : Fin 2) * 128 + 1 * q.val = q.val; omega)))
      (fun k => show V c arr1_5 (((cfg1.win 5).blk t).view.emb (ix2 0 k)) = _ from congrArg (V c arr1_5) (Shape.idx_ext₂
        (by show win1_5.index t (0 : Fin 2) * 1 + 1 * 0 = 0; omega) (by show win1_5.index t (1 : Fin 2) * 128 + 1 * k.val = k.val; omega))) q
  · have hi0 : (i 0).val < 100000 := (i 0).isLt
    have hi1 : (i 1).val < 128 := (i 1).isLt
    obtain ⟨t, ht⟩ := idx_onto1 ⟨(i 0).val / 2000, by omega⟩
    have q0 : win1_6.index t (0 : Fin 2) = (i 0).val / 2000 := congrFun ht 0
    have q1 : win1_6.index t (1 : Fin 2) = 0 := congrFun ht 1
    refine ⟨t, flush1_6 t, ?_⟩
    show i ∈ ((View.whole main_v29).slice (win1_6.rect t)).set
    rw [View.set_slice_whole, Rect.mem_set_unit]
    intro a
    match a with
    | ⟨0, _⟩ => show win1_6.index t (0 : Fin 2) * 2000 ≤ (i 0).val ∧ (i 0).val < win1_6.index t (0 : Fin 2) * 2000 + 2000; omega
    | ⟨1, _⟩ => show win1_6.index t (1 : Fin 2) * 128 ≤ (i 1).val ∧ (i 1).val < win1_6.index t (1 : Fin 2) * 128 + 128; omega

end Cert.KernelIdeal.Val

end
-- ==== Proof.KI.ValA2.lean ====
import proofs.«428666_j20289425506393_1_alg».proof.Proof.KI.RegA2
import proofs.«428666_j20289425506393_1_alg».proof.Proof.Spec
import Idealize.ShloMosaic.Lib.Pipeline.Value
import Idealize.ShloMosaic.Lib.ValueLayout
import Idealize.ShloMosaic.Lib.StackMember

noncomputable section

namespace Cert.KernelIdeal.Val

open Cert.KernelIdeal Cert.KernelIdeal.Gen Cert.KernelIdeal.GenP Cert.KernelIdeal.Fr
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- A plain matrix product added to the zero matrix is, entry by entry, the sum over the contracted coordinate. -/
private theorem mm_apply {m k n : ℕ} {φ₁ φ₂ : FTy} (d : DotDims ⟨2, ![m, k]⟩ ⟨2, ![k, n]⟩ ⟨2, ![m, n]⟩) (hd : d = .plain m k n)
    (prec : Option ContractPrecision) (A : FVec Ideal ⟨2, ![m, k]⟩ φ₁) (B : FVec Ideal ⟨2, ![k, n]⟩ φ₂) (a : Fin m) (b : Fin n) :
    FloatOps.matmul d prec A B (constant (F := Ideal) ⟨2, ![m, n]⟩ .f32 0x00000000#32) (ix2 a b) = ∑ c : Fin k, A (ix2 a c) * B (ix2 c b) := by
  subst hd
  rw [Ideal.matmul_constant_zero_apply]
  exact (Ideal.dotGeneral_apply _ prec _ A B _).symm.trans (StackMember.dotGeneral_plain_apply prec A B a b)

/-- If two row blocks agree at row `p` with two arrays at row `n`, and the weights agree entrywise, the computed block at row `p` is the layer at row `n`. -/
theorem pay2_eq {x0 x1 : Vec Ideal S2000x128 .f32} {x2 : Vec Ideal S128x128 .f32} {x3 x5 : Vec Ideal S1x128 .f32} {x4 : Vec Ideal S128x128 .f32}
    {A0 A1 : FVec Ideal Cert.Spec.N128 .f32} {A2 : FVec Ideal Cert.Spec.W128 .f32} {A3 A5 : FVec Ideal S1x128 .f32} {A4 : FVec Ideal Cert.Spec.W128 .f32}
    {p : Fin 2000} {n : Fin 100000} (h0 : ∀ l, x0 (ix2 p l) = A0 (ix2 n l)) (h1 : ∀ l, x1 (ix2 p l) = A1 (ix2 n l))
    (h2 : ∀ l k, x2 (ix2 l k) = A2 (ix2 l k)) (h3 : ∀ k, x3 (ix2 0 k) = A3 (ix2 0 k)) (h4 : ∀ k q, x4 (ix2 k q) = A4 (ix2 k q))
    (h5 : ∀ k, x5 (ix2 0 k) = A5 (ix2 0 k)) (q : Fin 128) :
    k2_pay1 (F := Ideal) x0 x1 x2 x3 x4 x5 (ix2 p q)
      = Cert.Spec.layer128 A0 A1 A2 (fun k => A3 (ix2 0 k)) A4 (fun k => A5 (ix2 0 k)) (ix2 n q) := by
  unfold k2_pay1
  simp only [maximumf_apply, addf_apply, truncf_apply, broadcast_apply, shapeCast_self, broadcastTo_1b_ab_apply,
    mm_apply dot_S2000x128_S128x128_S2000x128_1_0_0_1_n_n rfl, h0, h1, h2, h3, h4, h5]
  rfl

abbrev arr2_0 : Ref sig .tc := main_v29
abbrev arr2_1 : Ref sig .tc := main_v39
abbrev arr2_2 : Ref sig .tc := main_arg12
abbrev arr2_3 : Ref sig .tc := main_v40
abbrev arr2_4 : Ref sig .tc := main_arg14
abbrev arr2_5 : Ref sig .tc := main_v41

theorem idx_facts2 : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

theorem idx_onto2 : ∀ (q0 : Fin 50), ∃ t : Fin cfg2.N, win2_6.index t = ![q0.val, 0] :=
  (by decide +kernel : ∀ (q0 : Fin 50), ∃ t : Fin grid2.N, win2_6.index t = ![q0.val, 0])

/-- Row block `t` of the array is row block `t` of the layer, and the 50 row blocks cover the rows. -/
theorem arrAt2_eq (c : Dev nD) : (dat2 (F := Ideal) V c).arrAt 6 cfg2.N
    = Cert.Spec.layer128 (V c arr2_0) (V c arr2_1) (V c arr2_2) (fun k => V c arr2_3 (ValueIdx.ix2 0 k)) (V c arr2_4) (fun k => V c arr2_5 (ValueIdx.ix2 0 k)) := by
  refine (dat2 (F := Ideal) V c).arrAt_eq_of_cover 6 _ (fun t _ => ?_) fun (i : S100000x128.Idx) => ?_
  · show (cfg2.win 6).cut (grid2.coords t) ((dat2 (F := Ideal) V c).after 6 t) = _
    rw [after2_6, out2_6_eq]
    obtain ⟨e00, e01, e10, e11, e20, e21, e30, e31, e40, e41, e50, e51, b60, e61⟩ := idx_facts2 t
    funext j
    obtain ⟨p, q, rfl⟩ : ∃ (p : Fin 2000) (q : Fin 128), j = ix2 p q := ⟨j 0, j 1, eq_ix2 j⟩
    have hp := p.isLt
    have hemb : ((cfg2.win 6).blk t).view.emb (ix2 p q) = ix2 (⟨win2_6.index t (0 : Fin 2) * 2000 + p.val, by omega⟩ : Fin 100000) q :=
      Shape.idx_ext₂ (by show win2_6.index t (0 : Fin 2) * 2000 + 1 * p.val = win2_6.index t (0 : Fin 2) * 2000 + p.val; omega)
        (by show win2_6.index t (1 : Fin 2) * 128 + 1 * q.val = q.val; omega)
    show k2_pay1 (F := Ideal) (iblk2 V c 0 t) (iblk2 V c 1 t) (iblk2 V c 2 t) (iblk2 V c 3 t) (iblk2 V c 4 t) (iblk2 V c 5 t) (ix2 p q)
      = Cert.Spec.layer128 (V c arr2_0) (V c arr2_1) (V c arr2_2) (fun k => V c arr2_3 (ix2 0 k)) (V c arr2_4) (fun k => V c arr2_5 (ix2 0 k))
        (((cfg2.win 6).blk t).view.emb (ix2 p q))
    rw [hemb]
    exact pay2_eq
      (fun l => show V c arr2_0 (((cfg2.win 0).blk t).view.emb (ix2 p l)) = _ from congrArg (V c arr2_0) (Shape.idx_ext₂
        (by show win2_0.index t (0 : Fin 2) * 2000 + 1 * p.val = win2_6.index t (0 : Fin 2) * 2000 + p.val; omega) (by show win2_0.index t (1 : Fin 2) * 128 + 1 * l.val = l.val; omega)))
      (fun l => show V c arr2_1 (((cfg2.win 1).blk t).view.emb (ix2 p l)) = _ from congrArg (V c arr2_1) (Shape.idx_ext₂
        (by show win2_1.index t (0 : Fin 2) * 2000 + 1 * p.val = win2_6.index t (0 : Fin 2) * 2000 + p.val; omega) (by show win2_1.index t (1 : Fin 2) * 128 + 1 * l.val = l.val; omega)))
      (fun l k => show V c arr2_2 (((cfg2.win 2).blk t).view.emb (ix2 l k)) = _ from congrArg (V c arr2_2) (Shape.idx_ext₂
        (by show win2_2.index t (0 : Fin 2) * 128 + 1 * l.val = l.val; omega) (by show win2_2.index t (1 : Fin 2) * 128 + 1 * k.val = k.val; omega)))
      (fun k => show V c arr2_3 (((cfg2.win 3).blk t).view.emb (ix2 0 k)) = _ from congrArg (V c arr2_3) (Shape.idx_ext₂
        (by show win2_3.index t (0 : Fin 2) * 1 + 1 * 0 = 0; omega) (by show win2_3.index t (1 : Fin 2) * 128 + 1 * k.val = k.val; omega)))
      (fun k q => show V c arr2_4 (((cfg2.win 4).blk t).view.emb (ix2 k q)) = _ from congrArg (V c arr2_4) (Shape.idx_ext₂
        (by show win2_4.index t (0 : Fin 2) * 128 + 1 * k.val = k.val; omega) (by show win2_4.index t (1 : Fin 2) * 128 + 1 * q.val = q.val; omega)))
      (fun k => show V c arr2_5 (((cfg2.win 5).blk t).view.emb (ix2 0 k)) = _ from congrArg (V c arr2_5) (Shape.idx_ext₂
        (by show win2_5.index t (0 : Fin 2) * 1 + 1 * 0 = 0; omega) (by show win2_5.index t (1 : Fin 2) * 128 + 1 * k.val = k.val; omega))) q
  · have hi0 : (i 0).val < 100000 := (i 0).isLt
    have hi1 : (i 1).val < 128 := (i 1).isLt
    obtain ⟨t, ht⟩ := idx_onto2 ⟨(i 0).val / 2000, by omega⟩
    have q0 : win2_6.index t (0 : Fin 2) = (i 0).val / 2000 := congrFun ht 0
    have q1 : win2_6.index t (1 : Fin 2) = 0 := congrFun ht 1
    refine ⟨t, flush2_6 t, ?_⟩
    show i ∈ ((View.whole main_v42).slice (win2_6.rect t)).set
    rw [View.set_slice_whole, Rect.mem_set_unit]
    intro a
    match a with
    | ⟨0, _⟩ => show win2_6.index t (0 : Fin 2) * 2000 ≤ (i 0).val ∧ (i 0).val < win2_6.index t (0 : Fin 2) * 2000 + 2000; omega
    | ⟨1, _⟩ => show win2_6.index t (1 : Fin 2) * 128 ≤ (i 1).val ∧ (i 1).val < win2_6.index t (1 : Fin 2) * 128 + 128; omega

end Cert.KernelIdeal.Val

end
-- ==== Proof.KI.Val3Fin.lean ====
import proofs.«428666_j20289425506393_1_alg».proof.Proof.KI.Reg3Defs
import proofs.«428666_j20289425506393_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Fr
open Idealize.ShloMosaic Idealize.ShloMosaic.ValueIdx

/-- A product with one contracted axis, into the zero accumulator, is at an index the sum over that axis. -/
theorem mat0_apply {sl sr so : Shape} {φ₁ φ₂ : FTy} (d : DotDims sl sr so) (n : ℕ) (hr : d.contr.rank = 1)
    (hs : d.contr.size ⟨0, by omega⟩ = n) (y0 : FVec Ideal sl φ₁) (y1 : FVec Ideal sr φ₂) (j : so.Idx)
    (L : Fin n → sl.Idx) (R : Fin n → sr.Idx) (hL : ∀ q, d.lhsIdx j q = L (contrEquiv1 d n hr hs q))
    (hR : ∀ q, d.rhsIdx j q = R (contrEquiv1 d n hr hs q)) :
    FloatOps.matmul d none y0 y1 (constant (F := Ideal) so .f32 0x00000000#32) j = ∑ k : Fin n, y0 (L k) * y1 (R k) := by
  rw [Ideal.matmul_constant_zero_apply, ← Equiv.sum_comp (contrEquiv1 d n hr hs)]
  exact Finset.sum_congr rfl fun q _ => by rw [hL, hR]

theorem matC3_apply {φ₁ φ₂ : FTy} (y0 : FVec Ideal S256x128 φ₁) (y1 : FVec Ideal S128x256 φ₂) (p q : Fin 256) :
    FloatOps.matmul dot_S256x128_S128x256_S256x256_1_0_0_1_n_n none y0 y1 (constant (F := Ideal) S256x256 .f32 0x00000000#32) (ix2 p q)
      = ∑ k : Fin 128, y0 (ix2 p k) * y1 (ix2 k q) :=
  mat0_apply _ 128 rfl rfl y0 y1 _ (ix2 p ·) (ix2 · q) (fun _ => Shape.idx_ext₂ rfl rfl) (fun _ => Shape.idx_ext₂ rfl rfl)

theorem matD3_apply {φ₁ φ₂ : FTy} (y0 : FVec Ideal S256x256 φ₁) (y1 : FVec Ideal S256x2 φ₂) (p : Fin 256) (q : Fin 2) :
    FloatOps.matmul dot_S256x256_S256x2_S256x2_1_0_0_1_n_n none y0 y1 (constant (F := Ideal) S256x2 .f32 0x00000000#32) (ix2 p q)
      = ∑ k : Fin 256, y0 (ix2 p k) * y1 (ix2 k q) :=
  mat0_apply _ 256 rfl rfl y0 y1 _ (ix2 p ·) (ix2 · q) (fun _ => Shape.idx_ext₂ rfl rfl) (fun _ => Shape.idx_ext₂ rfl rfl)

theorem rsqrt3_apply {s : Shape} {φ : FTy} (a : FVec Ideal s φ) (i : s.Idx) : rsqrt a i = FloatOps.rsqrt (F := Ideal) (φ := φ) (a i) := rfl

/-- Each product is its sum over the contracted axis and each row vector is read at its column; the rest is the classifier's definition. -/
theorem fin3_eq (acc : Vec Ideal S256x128 .f32) (x8 : Vec Ideal S128x256 .f32) (x9 x10 x11 x12 x13 : Vec Ideal S1x256 .f32)
    (x14 : Vec Ideal S256x2 .f32) (x15 : Vec Ideal S1x2 .f32) :
    Fr.fin3 (F := Ideal) acc x8 x9 x10 x11 x12 x13 x14 x15
      = Cert.Spec.cls acc x8 (fun k => x9 (ValueIdx.ix2 0 k)) (fun k => x10 (ix2 0 k)) (fun k => x11 (ix2 0 k)) (fun k => x12 (ix2 0 k))
          (fun k => x13 (ix2 0 k)) x14 (fun k => x15 (ix2 0 k)) := by
  funext i
  obtain ⟨g, j, rfl⟩ : ∃ (g : Fin 256) (j : Fin 2), i = ix2 g j := ⟨i 0, i 1, eq_ix2 i⟩
  unfold fin3 k3_pay2
  simp only [maximumf_apply, addf_apply, subf_apply, mulf_apply, rsqrt3_apply, truncf_apply, broadcast_apply, matC3_apply, matD3_apply, shapeCast_self, broadcastTo_1b_ab_apply]
  rfl

end Cert.KernelIdeal.Val

end
-- ==== Proof.LibSumBlocks.lean ====
import Mathlib.Data.Fintype.BigOperators
import Mathlib.Logic.Equiv.Fin.Basic

theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Reindex along `finProdFinEquiv`: a flat position below `m * n` is `a * n + b` for one pair `(a, b)`. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm
-- ==== Proof.KI.Val3.lean ====
import proofs.«428666_j20289425506393_1_alg».proof.Proof.KI.Reg3
import proofs.«428666_j20289425506393_1_alg».proof.Proof.KI.Val3Fin
import proofs.«428666_j20289425506393_1_alg».proof.Proof.LibSumBlocks
import Idealize.ShloMosaic.Lib.DynamicIndex

noncomputable section

namespace Cert.KernelIdeal.Val

open Cert.KernelIdeal Cert.KernelIdeal.Gen Cert.KernelIdeal.GenP Cert.KernelIdeal.Fr
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem matJ3_apply {φ₁ φ₂ : FTy} (y0 : FVec Ideal S2000x128 φ₁) (y1 : FVec Ideal S128x128 φ₂) (p : Fin 2000) (q : Fin 128) :
    FloatOps.matmul dot_S2000x128_S128x128_S2000x128_1_0_0_1_n_n none y0 y1 (constant (F := Ideal) S2000x128 .f32 0x00000000#32) (ix2 p q)
      = ∑ k : Fin 128, y0 (ix2 p k) * y1 (ix2 k q) :=
  mat0_apply _ 128 rfl rfl y0 y1 _ (ix2 p ·) (ix2 · q) (fun _ => Shape.idx_ext₂ rfl rfl) (fun _ => Shape.idx_ext₂ rfl rfl)

theorem matP3_apply {φ₁ φ₂ : FTy} (y0 : FVec Ideal S2000x256 φ₁) (y1 : FVec Ideal S2000x128 φ₂) (p : Fin 256) (q : Fin 128) :
    FloatOps.matmul dot_S2000x256_S2000x128_S256x128_0_0_1_1_n_n none y0 y1 (constant (F := Ideal) S256x128 .f32 0x00000000#32) (ix2 p q)
      = ∑ k : Fin 2000, y0 (ix2 k p) * y1 (ix2 k q) :=
  mat0_apply _ 2000 rfl rfl y0 y1 _ (ix2 · p) (ix2 · q) (fun _ => Shape.idx_ext₂ rfl rfl) (fun _ => Shape.idx_ext₂ rfl rfl)

theorem colL3_apply {α : Type} (x : S2000x1.Idx → α) (p : Fin 2000) (g : Fin 256) :
    broadcastTo S2000x256 x broadcasts_S2000x1_S2000x256 (ix2 p g) = x (ix2 p 0) :=
  broadcastTo_apply x _ _ _ fun a => match a with | ⟨0, _⟩ => rfl | ⟨1, _⟩ => rfl

/-- A number below 2³¹ reads signed as itself, so two words are equal exactly when their signed readings are. -/
theorem onehot3_apply (x3 : Vec Ideal S2000x1 .i32) (p : Fin 2000) (g : Fin 256) :
    k3_pay5 (F := Ideal) x3 (ix2 p g) = if (x3 (ix2 p 0)).toInt = (g.val : ℤ) then (1 : EReal) else 0 := by
  have hg := toInt_ofNat_of_lt (k := g.val) (by have := g.isLt; omega)
  unfold k3_pay5
  simp only [sitofp_apply, extui_apply, shapeCast_self]
  show FloatOps.sitofp (F := Ideal) .f32 ((IntOp.cmpi .eq (broadcastTo S2000x256 x3 broadcasts_S2000x1_S2000x256 (ix2 p g))
      (iota .tc S2000x256 32 [1] iota_S2000x256_d1_w32 (ix2 p g))).setWidth 32) = _
  rw [colL3_apply, iota_single_apply]
  show (((((BitVec.ofBool (x3 (ix2 p 0) == BitVec.ofNat 32 g.val)).setWidth 32).toInt : ℝ) : EReal)) = _
  by_cases h : x3 (ix2 p 0) = BitVec.ofNat 32 g.val
  · rw [if_pos (h ▸ hg), beq_iff_eq.mpr h]
    show (((1#32 : BitVec 32).toInt : ℝ) : EReal) = 1
    norm_num
  · rw [if_neg fun h' => h (BitVec.eq_of_toInt_eq (h'.trans hg.symm)), beq_eq_false_iff_ne.mpr h]
    show (((0#32 : BitVec 32).toInt : ℝ) : EReal) = 0
    norm_num

theorem zero3_apply (g : Fin 256) (j : Fin 128) : zero3 (F := Ideal) (ix2 g j) = 0 := by
  unfold zero3 k3_pay3
  simp only [shapeCast_self, broadcast_apply]
  exact Ideal.ofBits_zero_f32

theorem idx3 : ∀ (w : Fin cfg3.W) (t : Fin cfg3.N) (a : Fin (cfg3.win w).shape.rank),
    (cfg3.win w).index t a = if w.val < 4 ∧ a.val = 0 then t.val else 0 := by decide +kernel

/-- With block index 0 the offset index * size vanishes. -/
theorem emb3_zero (w : Fin cfg3.W) (t : Fin cfg3.N) (y : ((cfg3.win w).xblock (cfg3.grid.coords t)).Idx) (a : Fin (cfg3.win w).shape.rank)
    (h : 4 ≤ w.val ∨ a.val ≠ 0) : (((cfg3.win w).rect t).emb y a : ℕ) = y a :=
  Window.rect_emb_val_of_index_zero _ t a ((idx3 w t a).trans (if_neg fun h' => h.elim (by omega) (absurd h'.2))) y

/-- With block index t the offset is t * size. -/
theorem emb3_row (w : Fin cfg3.W) (t : Fin cfg3.N) (y : ((cfg3.win w).xblock (cfg3.grid.coords t)).Idx) (a : Fin (cfg3.win w).shape.rank)
    (hw : w.val < 4) (ha : a.val = 0) : (((cfg3.win w).rect t).emb y a : ℕ) = t.val * (cfg3.win w).size a + y a :=
  (Window.rect_emb_val _ t y a).trans (by rw [(idx3 w t a).trans (if_pos ⟨hw, ha⟩)])

theorem blk3_0 (c : Dev nD) (t : Fin cfg3.N) (p : Fin 2000) (k : Fin 128) (h : t.val * 2000 + p.val < 100000) :
    iblk3 V c 0 t (ix2 p k) = V c main_v16 (ix2 (⟨t.val * 2000 + p.val, h⟩ : Fin 100000) k) :=
  congrArg (V c main_v16) (Shape.idx_ext₂ (emb3_row 0 t _ 0 (by decide) rfl) (emb3_zero 0 t _ 1 (.inr (by decide))))
theorem blk3_1 (c : Dev nD) (t : Fin cfg3.N) (p : Fin 2000) (k : Fin 128) (h : t.val * 2000 + p.val < 100000) :
    iblk3 V c 1 t (ix2 p k) = V c main_v29 (ix2 (⟨t.val * 2000 + p.val, h⟩ : Fin 100000) k) :=
  congrArg (V c main_v29) (Shape.idx_ext₂ (emb3_row 1 t _ 0 (by decide) rfl) (emb3_zero 1 t _ 1 (.inr (by decide))))
theorem blk3_2 (c : Dev nD) (t : Fin cfg3.N) (p : Fin 2000) (k : Fin 128) (h : t.val * 2000 + p.val < 100000) :
    iblk3 V c 2 t (ix2 p k) = V c main_v42 (ix2 (⟨t.val * 2000 + p.val, h⟩ : Fin 100000) k) :=
  congrArg (V c main_v42) (Shape.idx_ext₂ (emb3_row 2 t _ 0 (by decide) rfl) (emb3_zero 2 t _ 1 (.inr (by decide))))
theorem blk3_3 (c : Dev nD) (t : Fin cfg3.N) (p : Fin 2000) (k : Fin 1) (h : t.val * 2000 + p.val < 100000) :
    iblk3 V c 3 t (ix2 p k) = V c main_v53 (ix2 (⟨t.val * 2000 + p.val, h⟩ : Fin 100000) k) :=
  congrArg (V c main_v53) (Shape.idx_ext₂ (emb3_row 3 t _ 0 (by decide) rfl) (emb3_zero 3 t _ 1 (.inr (by decide))))

theorem blk3_4 (c : Dev nD) (t : Fin cfg3.N) : iblk3 V c 4 t = V c main_v43 :=
  funext fun y => congrArg (V c main_v43) (funext fun a => Fin.ext (emb3_zero 4 t y a (.inl (by decide))))
theorem blk3_5 (c : Dev nD) (t : Fin cfg3.N) : iblk3 V c 5 t = V c main_v44 :=
  funext fun y => congrArg (V c main_v44) (funext fun a => Fin.ext (emb3_zero 5 t y a (.inl (by decide))))
theorem blk3_6 (c : Dev nD) (t : Fin cfg3.N) : iblk3 V c 6 t = V c main_v45 :=
  funext fun y => congrArg (V c main_v45) (funext fun a => Fin.ext (emb3_zero 6 t y a (.inl (by decide))))
theorem blk3_7 (c : Dev nD) (t : Fin cfg3.N) : iblk3 V c 7 t = V c main_v46 :=
  funext fun y => congrArg (V c main_v46) (funext fun a => Fin.ext (emb3_zero 7 t y a (.inl (by decide))))
theorem blk3_8 (c : Dev nD) (t : Fin cfg3.N) : iblk3 V c 8 t = V c main_arg18 :=
  funext fun y => congrArg (V c main_arg18) (funext fun a => Fin.ext (emb3_zero 8 t y a (.inl (by decide))))
theorem blk3_9 (c : Dev nD) (t : Fin cfg3.N) : iblk3 V c 9 t = V c main_v47 :=
  funext fun y => congrArg (V c main_v47) (funext fun a => Fin.ext (emb3_zero 9 t y a (.inl (by decide))))
theorem blk3_10 (c : Dev nD) (t : Fin cfg3.N) : iblk3 V c 10 t = V c main_v48 :=
  funext fun y => congrArg (V c main_v48) (funext fun a => Fin.ext (emb3_zero 10 t y a (.inl (by decide))))
theorem blk3_11 (c : Dev nD) (t : Fin cfg3.N) : iblk3 V c 11 t = V c main_v49 :=
  funext fun y => congrArg (V c main_v49) (funext fun a => Fin.ext (emb3_zero 11 t y a (.inl (by decide))))
theorem blk3_12 (c : Dev nD) (t : Fin cfg3.N) : iblk3 V c 12 t = V c main_v50 :=
  funext fun y => congrArg (V c main_v50) (funext fun a => Fin.ext (emb3_zero 12 t y a (.inl (by decide))))
theorem blk3_13 (c : Dev nD) (t : Fin cfg3.N) : iblk3 V c 13 t = V c main_v51 :=
  funext fun y => congrArg (V c main_v51) (funext fun a => Fin.ext (emb3_zero 13 t y a (.inl (by decide))))
theorem blk3_14 (c : Dev nD) (t : Fin cfg3.N) : iblk3 V c 14 t = V c main_arg24 :=
  funext fun y => congrArg (V c main_arg24) (funext fun a => Fin.ext (emb3_zero 14 t y a (.inl (by decide))))
theorem blk3_15 (c : Dev nD) (t : Fin cfg3.N) : iblk3 V c 15 t = V c main_v52 :=
  funext fun y => congrArg (V c main_v52) (funext fun a => Fin.ext (emb3_zero 15 t y a (.inl (by decide))))

abbrev jk3 (c : Dev nD) : FVec Ideal Cert.Spec.N128 .f32 :=
  Cert.Spec.jk (V c main_v16) (V c main_v29) (V c main_v42) (V c main_v43) (V c main_v44) (V c main_v45) (fun k => V c main_v46 (ValueIdx.ix2 0 k))

abbrev lab3 (c : Dev nD) : Fin 100000 → BitVec 32 := fun n => V c main_v53 (ValueIdx.ix2 n 0)

def give3 (c : Dev nD) (g : Fin 256) (j : Fin 128) (n : Fin 100000) : EReal :=
  if (lab3 V c n).toInt = (g.val : ℤ) then jk3 V c (ix2 n j) else 0

def blockGive3 (c : Dev nD) (g : Fin 256) (j : Fin 128) (t : ℕ) : EReal :=
  if ht : t < 50 then ∑ p : Fin 2000, give3 V c g j ⟨t * 2000 + p.val, Fin.rowMajor_lt (⟨t, ht⟩ : Fin 50) p⟩ else 0

/-- One times a value is the value and zero times it is zero, so the product with the one-hot keeps the rows of graph g. -/
theorem step3_point (c : Dev nD) (t : Fin cfg3.N) (acc : Vec Ideal S256x128 .f32) (g : Fin 256) (j : Fin 128) :
    step3 (F := Ideal) (iblk3 V c 0 t) (iblk3 V c 1 t) (iblk3 V c 2 t) (iblk3 V c 3 t) (iblk3 V c 4 t) (iblk3 V c 5 t) (iblk3 V c 6 t) (iblk3 V c 7 t) acc (ix2 g j)
      = acc (ix2 g j) + blockGive3 V c g j t.val := by
  have ht : t.val < 50 := lt_of_lt_of_eq t.isLt N_3
  unfold step3 k3_pay1 k3_pay4 blockGive3
  rw [dif_pos ht, blk3_4 V c t, blk3_5 V c t, blk3_6 V c t, blk3_7 V c t]
  simp only [shapeCast_self, addf_apply, truncf_apply, matP3_apply, matJ3_apply, broadcastTo_1b_ab_apply, onehot3_apply]
  refine congrArg (acc (ix2 g j) + ·) (Finset.sum_congr rfl fun p _ => ?_)
  have hb : t.val * 2000 + p.val < 100000 := by have := p.isLt; omega
  simp only [blk3_0 V c t p _ hb, blk3_1 V c t p _ hb, blk3_2 V c t p _ hb, blk3_3 V c t p _ hb]
  exact boole_mul _ _

theorem scratch3_eq (c : Dev nD) (g : Fin 256) (j : Fin 128) : ∀ (n : ℕ) (h : n < cfg3.N),
    (outsAt3 V c n h).2 (ix2 g j) = ∑ t ∈ Finset.range (n + 1), blockGive3 V c g j t
  | 0, h => by
    rw [outsAt3_scratch_zero, step3_point V c ⟨0, h⟩, zero3_apply, zero_add, Finset.sum_range_one]
  | n + 1, h => by
    rw [outsAt3_scratch_succ, step3_point V c ⟨n + 1, h⟩, scratch3_eq c g j n (Nat.lt_of_succ_lt h), Finset.sum_range_succ _ (n + 1)]

/-- The 100000 nodes are the 50 blocks of 2000, so the sum over the nodes is the sum of the blocks' sums. -/
theorem scratch3_last (c : Dev nD) (h : 49 < cfg3.N) :
    (outsAt3 V c 49 h).2 = Cert.Spec.pool (jk3 V c) (lab3 V c) := by
  funext i
  obtain ⟨g, j, rfl⟩ : ∃ (g : Fin 256) (j : Fin 128), i = ix2 g j := ⟨i 0, i 1, eq_ix2 i⟩
  rw [scratch3_eq V c g j 49 h, Finset.sum_range (fun t => blockGive3 V c g j t)]
  refine Eq.trans (Finset.sum_congr rfl fun t _ => ?_) (Fin.sum_rowMajor2 50 2000 (give3 V c g j)).symm
  unfold blockGive3
  rw [dif_pos t.isLt]

abbrev out3 (c : Dev nD) : FVec Ideal Cert.Spec.O2 .f32 :=
  Cert.Spec.cls (Cert.Spec.pool (jk3 V c) (lab3 V c)) (V c main_arg18) (fun k => V c main_v47 (ix2 0 k)) (fun k => V c main_v48 (ix2 0 k))
    (fun k => V c main_v49 (ix2 0 k)) (fun k => V c main_v50 (ix2 0 k)) (fun k => V c main_v51 (ix2 0 k)) (V c main_arg24) (fun k => V c main_v52 (ix2 0 k))

theorem flushed3_eq (c : Dev nD) (t : Fin cfg3.N) (hf : (cfg3.win 16).flush t = true) :
    (dat3 (F := Ideal) V c).flushed 16 t = ((cfg3.win 16).blk t).view.read (Elt Ideal) (out3 V c) := by
  have hN : t.val < 50 := lt_of_lt_of_eq t.isLt N_3
  have h49 : t.val = 49 := by have := (flush3_16 t).mp hf; omega
  obtain ⟨tv, tlt⟩ := t
  subst h49
  show (cfg3.win 16).cut (grid3.coords ⟨49, tlt⟩) ((dat3 (F := Ideal) V c).after 16 ⟨49, tlt⟩) = _
  rw [(after3_16 V c ⟨49, tlt⟩).trans (outsAt3_out_last V c tlt), fin3_eq, scratch3_last, blk3_8 V c, blk3_9 V c, blk3_10 V c, blk3_11 V c,
    blk3_12 V c, blk3_13 V c, blk3_14 V c, blk3_15 V c]
  exact funext fun y => congrArg (out3 V c) (funext fun a => Fin.ext (emb3_zero 16 ⟨49, tlt⟩ y a (.inl (by decide))).symm)

theorem cover3 (i : S256x2.Idx) : ∃ t : Fin cfg3.N, (cfg3.win 16).flush t = true ∧ i ∈ ((cfg3.win 16).blk t).view.set := by
  have h : 49 < cfg3.N := by decide
  refine ⟨⟨49, h⟩, (flush3_16 _).mpr rfl, ?_⟩
  show i ∈ ((View.whole main_v54).slice (win3_16.rect ⟨49, h⟩)).set
  rw [View.set_slice_whole, Rect.mem_set_unit]
  intro a
  rw [show win3_16.index ⟨49, h⟩ a = 0 from (idx3 16 _ a).trans (if_neg fun h' => absurd h'.1 (by decide)), Nat.zero_mul, Nat.zero_add]
  exact ⟨Nat.zero_le _, (i a).isLt⟩

theorem arrAt3_eq (c : Dev nD) : (Fr.dat3 (F := Ideal) V c).arrAt 16 cfg3.N
    = Cert.Spec.cls (Cert.Spec.pool (Cert.Spec.jk (V c main_v16) (V c main_v29) (V c main_v42) (V c main_v43) (V c main_v44) (V c main_v45) (fun k => V c main_v46 (ValueIdx.ix2 0 k))) (fun n => V c main_v53 (ValueIdx.ix2 n 0)))
        (V c main_arg18) (fun k => V c main_v47 (ix2 0 k)) (fun k => V c main_v48 (ix2 0 k)) (fun k => V c main_v49 (ix2 0 k)) (fun k => V c main_v50 (ix2 0 k)) (fun k => V c main_v51 (ix2 0 k)) (V c main_arg24) (fun k => V c main_v52 (ix2 0 k)) :=
  (dat3 (F := Ideal) V c).arrAt_eq_of_cover 16 (out3 V c) (fun t hf => flushed3_eq V c t hf) cover3

end Cert.KernelIdeal.Val

end
-- ==== Proof.Agg.lean ====
import proofs.«428666_j20289425506393_1_alg».proof.Defs
import proofs.«428666_j20289425506393_1_alg».proof.Proof.Gen.KernelIdeal
import proofs.«428666_j20289425506393_1_alg».proof.Proof.Gen.ReferenceIdeal

noncomputable section

namespace Cert.Agg

open Idealize.ShloMosaic

variable {F : FTy → Type} [FloatOps F]

section Kside
open Cert.KernelIdeal Cert.KernelIdeal.Facts₀ Cert.KernelIdeal.Facts

def srcK (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def dstK (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
def normK (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
def agg7K (x : (⟨S100000x7, .f32⟩ : BufTy).Contents (Elt F)) (ei : (⟨S2x1600000, .i32⟩ : BufTy).Contents (Elt F)) :
    (⟨S100000x7, .f32⟩ : BufTy).Contents (Elt F) :=
  Host.scatterAdd scatter_S100000x7_S1600000x1_S1600000x7_1_0_0_1
    (broadcastInDim S100000x7 ![] bcast_S_S100000x7 (constant S_ .f32 0x00000000#32))
    (broadcastInDim S1600000x1 ![0] bcast_S1600000_S1600000x1_0 (dstK (F := F) ei))
    (Host.gather gather_S100000x7_S1600000x1_S1600000x7_1_0_n_n_0_1_17 x (normK (F := F) (srcK (F := F) ei)))
def agg128K (h : (⟨S100000x128, .f32⟩ : BufTy).Contents (Elt F)) (ei : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstK (F := F) ei))
    (Host.gather gather_S100000x128_S1600000x1_S1600000x128_1_0_n_n_0_1_1128 h (normK (F := F) (srcK (F := F) ei)))

end Kside

section Rside
open Cert.ReferenceIdeal Cert.ReferenceIdeal.Facts₀ Cert.ReferenceIdeal.Facts

def srcR (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000
def dstR (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000
def normR (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
def agg7R (x : (⟨S100000x7, .f32⟩ : BufTy).Contents (Elt F)) (ei : (⟨S2x1600000, .i32⟩ : BufTy).Contents (Elt F)) :
    (⟨S100000x7, .f32⟩ : BufTy).Contents (Elt F) :=
  Host.scatterAdd scatter_S100000x7_S1600000x1_S1600000x7_1_0_0_1
    (broadcastInDim S100000x7 ![] bcast_S_S100000x7 (constant S_ .f32 0x00000000#32))
    (broadcastInDim S1600000x1 ![0] bcast_S1600000_S1600000x1_0 (dstR (F := F) ei))
    (Host.gather gather_S100000x7_S1600000x1_S1600000x7_1_0_n_n_0_1_17 x (normR (F := F) (srcR (F := F) ei)))
def agg128R (h : (⟨S100000x128, .f32⟩ : BufTy).Contents (Elt F)) (ei : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dstR (F := F) ei))
    (Host.gather gather_S100000x128_S1600000x1_S1600000x128_1_0_n_n_0_1_1128 h (normR (F := F) (srcR (F := F) ei)))

end Rside

theorem agg7K_eq_agg7R : agg7K (F := F) = agg7R (F := F) := rfl
theorem agg128K_eq_agg128R : agg128K (F := F) = agg128R (F := F) := rfl

end Cert.Agg

end
-- ==== Proof.KI.HostVals.lean ====
import proofs.«428666_j20289425506393_1_alg».proof.Proof.KI.Regions
import proofs.«428666_j20289425506393_1_alg».proof.Proof.Agg
import proofs.«428666_j20289425506393_1_alg».proof.Proof.Spec
import Idealize.ShloMosaic.Lib.ValueLayout

noncomputable section

namespace Cert.KernelIdeal.Val

open Cert.KernelIdeal Cert.KernelIdeal.Gen Cert.KernelIdeal.GenP Cert.Agg
open Cert.Spec (wjkSlice)
open Idealize.ShloMosaic Idealize.ShloMosaic.TcCoe Idealize.ShloMosaic.ValueIdx Idealize.ShloMosaic.StableHlo

variable {F : FTy → Type} [FloatOps F] (W : Valuation τ sig (Elt F))

-- The edge list's two rows.
theorem h0_v1 : after hostOps0 W main_v1 = srcK (W main_arg1) := by
  after_results <;> rfl
theorem h0_v3 : after hostOps0 W main_v3 = dstK (W main_arg1) := by
  after_results <;> rfl
-- The neighbour sums of the input features.
theorem h0_v13 : after hostOps0 W main_v13 = agg7K (W main_arg0) (W main_arg1) := by
  after_results_simp <;> rfl
-- A vector reshaped to one row reads, at column `k`, the vector at `k`.
theorem h0_v14 : (fun k => after hostOps0 W main_v14 (ix2 0 k)) = fun k => W main_arg5 (ix1 k) := by
  funext k; after_results; exact shapeCast_a_1a_apply _ _ 0 k
theorem h0_v15 : (fun k => after hostOps0 W main_v15 (ix2 0 k)) = fun k => W main_arg7 (ix1 k) := by
  funext k; after_results; exact shapeCast_a_1a_apply _ _ 0 k
-- What no operation of the stretch writes is unchanged.
theorem h0_keep (b : Ref sig .tc) (h : b ∉ hostOps0_W) : after hostOps0 W b = W b :=
  after_of_writes_sub _ _ hostOps0_writes h

-- With the edge list's rows in place, the stretch leaves the neighbour sums of the previous layer's output.
theorem h1_v26 (ei : (⟨S2x1600000, .i32⟩ : BufTy).Contents (Elt F)) (hs : W main_v1 = srcK ei) (hd : W main_v3 = dstK ei) :
    after hostOps1 W main_v26 = agg128K (W main_v16) ei := by
  rw [agg128K, ← hs, ← hd]; after_results_simp <;> rfl
theorem h1_v27 : (fun k => after hostOps1 W main_v27 (ix2 0 k)) = fun k => W main_arg9 (ix1 k) := by
  funext k; after_results; exact shapeCast_a_1a_apply _ _ 0 k
theorem h1_v28 : (fun k => after hostOps1 W main_v28 (ix2 0 k)) = fun k => W main_arg11 (ix1 k) := by
  funext k; after_results; exact shapeCast_a_1a_apply _ _ 0 k
theorem h1_keep (b : Ref sig .tc) (h : b ∉ hostOps1_W) : after hostOps1 W b = W b :=
  after_of_writes_sub _ _ hostOps1_writes h

theorem h2_v39 (ei : (⟨S2x1600000, .i32⟩ : BufTy).Contents (Elt F)) (hs : W main_v1 = srcK ei) (hd : W main_v3 = dstK ei) :
    after hostOps2 W main_v39 = agg128K (W main_v29) ei := by
  rw [agg128K, ← hs, ← hd]; after_results_simp <;> rfl
theorem h2_v40 : (fun k => after hostOps2 W main_v40 (ix2 0 k)) = fun k => W main_arg13 (ix1 k) := by
  funext k; after_results; exact shapeCast_a_1a_apply _ _ 0 k
theorem h2_v41 : (fun k => after hostOps2 W main_v41 (ix2 0 k)) = fun k => W main_arg15 (ix1 k) := by
  funext k; after_results; exact shapeCast_a_1a_apply _ _ 0 k
theorem h2_keep (b : Ref sig .tc) (h : b ∉ hostOps2_W) : after hostOps2 W b = W b :=
  after_of_writes_sub _ _ hostOps2_writes h

theorem h3_v46 : (fun k => after hostOps3 W main_v46 (ix2 0 k)) = fun k => W main_arg17 (ix1 k) := by
  funext k; after_results; exact shapeCast_a_1a_apply _ _ 0 k
theorem h3_v47 : (fun k => after hostOps3 W main_v47 (ix2 0 k)) = fun k => W main_arg19 (ix1 k) := by
  funext k; after_results; exact shapeCast_a_1a_apply _ _ 0 k
theorem h3_v48 : (fun k => after hostOps3 W main_v48 (ix2 0 k)) = fun k => W main_arg20 (ix1 k) := by
  funext k; after_results; exact shapeCast_a_1a_apply _ _ 0 k
theorem h3_v49 : (fun k => after hostOps3 W main_v49 (ix2 0 k)) = fun k => W main_arg21 (ix1 k) := by
  funext k; after_results; exact shapeCast_a_1a_apply _ _ 0 k
theorem h3_v50 : (fun k => after hostOps3 W main_v50 (ix2 0 k)) = fun k => W main_arg22 (ix1 k) := by
  funext k; after_results; exact shapeCast_a_1a_apply _ _ 0 k
theorem h3_v51 : (fun k => after hostOps3 W main_v51 (ix2 0 k)) = fun k => W main_arg23 (ix1 k) := by
  funext k; after_results; exact shapeCast_a_1a_apply _ _ 0 k
theorem h3_v52 : (fun k => after hostOps3 W main_v52 (ix2 0 k)) = fun k => W main_arg25 (ix1 k) := by
  funext k; after_results; exact shapeCast_a_1a_apply _ _ 0 k

-- The labels reshaped to one column read, at row `n`, the vector at `n`.
theorem h3_v53 : (fun n => after hostOps3 W main_v53 (ix2 n 0)) = fun n => W main_arg3 (ix1 n) := by
  funext n; after_results
  refine shapeCast_apply _ _ _ _ ?_
  show ((⟨1, ![100000]⟩ : Shape).rowMajor (ix1 n)).val = ((⟨2, ![100000, 1]⟩ : Shape).rowMajor (ix2 n 0)).val
  rw [Shape.rowMajor_val_two, Shape.rowMajor_val_one]
  exact (Nat.mul_one n.val).symm
theorem h3_keep (b : Ref sig .tc) (h : b ∉ hostOps3_W) : after hostOps3 W b = W b :=
  after_of_writes_sub _ _ hostOps3_writes h

variable (V : Valuation τ sig (Elt Ideal))

-- Rows `[128 s, 128 s + 128)` of the projection's weight.
theorem h3_v43 : after hostOps3 V main_v43 = wjkSlice 0 (V main_arg16) := by
  after_results; funext j; rw [eq_ix2 j]; exact slice2_axis0_apply _ _ _ _ _ _ rfl
theorem h3_v44 : after hostOps3 V main_v44 = wjkSlice 1 (V main_arg16) := by
  after_results; funext j; rw [eq_ix2 j]; exact slice2_axis0_apply _ _ _ _ _ _ rfl
theorem h3_v45 : after hostOps3 V main_v45 = wjkSlice 2 (V main_arg16) := by
  after_results; funext j; rw [eq_ix2 j]; exact slice2_axis0_apply _ _ _ _ _ _ rfl

end Cert.KernelIdeal.Val

end
-- ==== Proof.KI.Final.lean ====
import proofs.«428666_j20289425506393_1_alg».proof.Proof.KI.Run
import proofs.«428666_j20289425506393_1_alg».proof.Proof.KI.ValA0
import proofs.«428666_j20289425506393_1_alg».proof.Proof.KI.ValA1
import proofs.«428666_j20289425506393_1_alg».proof.Proof.KI.ValA2
import proofs.«428666_j20289425506393_1_alg».proof.Proof.KI.Val3
import proofs.«428666_j20289425506393_1_alg».proof.Proof.KI.HostVals

noncomputable section

namespace Cert.KernelIdeal.Val

open Cert.KernelIdeal Cert.KernelIdeal.Gen Cert.KernelIdeal.GenP Cert.KernelIdeal.Fr Cert.Agg
open Cert.Spec (layer7 layer128 out N128 O2)
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg) (c : Dev nD)

-- The launch contents of an argument.
abbrev arg (b : Ref sig .tc) := m ((c : Thread nD τ).loc b)

-- No step before the last region writes `b`.
abbrev Arg (b : Ref sig .tc) : Prop :=
  b ∉ hostOps0_W ∧ b ≠ main_v16 ∧ b ∉ hostOps1_W ∧ b ≠ main_v29 ∧ b ∉ hostOps2_W ∧ b ≠ main_v42 ∧ b ∉ hostOps3_W

section
variable (b : Ref sig .tc) (h : Arg b := by decide)
include h
-- Under it each boundary reads `b` as launched, one step at a time.
theorem arg1 : StableHlo.after hostOps0 (W0 m ρ c) b = arg m c b := h0_keep _ b h.1
theorem arg2 : W2 m ρ c b = arg m c b := (W2_keep m ρ c b h.2.1).trans (arg1 m ρ c b h)
theorem arg3 : StableHlo.after hostOps1 (W2 m ρ c) b = arg m c b := (h1_keep _ b h.2.2.1).trans (arg2 m ρ c b h)
theorem arg4 : W4 m ρ c b = arg m c b := (W4_keep m ρ c b h.2.2.2.1).trans (arg3 m ρ c b h)
theorem arg5 : StableHlo.after hostOps2 (W4 m ρ c) b = arg m c b := (h2_keep _ b h.2.2.2.2.1).trans (arg4 m ρ c b h)
theorem arg6 : W6 m ρ c b = arg m c b := (W6_keep m ρ c b h.2.2.2.2.2.1).trans (arg5 m ρ c b h)
theorem arg7 : StableHlo.after hostOps3 (W6 m ρ c) b = arg m c b := (h3_keep _ b h.2.2.2.2.2.2).trans (arg6 m ρ c b h)
end

-- The edge list's rows are written once, by the first stretch.
theorem src2 : W2 m ρ c main_v1 = srcK (arg m c main_arg1) :=
  (W2_keep m ρ c main_v1 (by decide)).trans (h0_v1 _)
theorem dst2 : W2 m ρ c main_v3 = dstK (arg m c main_arg1) :=
  (W2_keep m ρ c main_v3 (by decide)).trans (h0_v3 _)
theorem src4 : W4 m ρ c main_v1 = srcK (arg m c main_arg1) :=
  (W4_keep m ρ c main_v1 (by decide)).trans ((h1_keep _ main_v1 (by decide)).trans (src2 m ρ c))
theorem dst4 : W4 m ρ c main_v3 = dstK (arg m c main_arg1) :=
  (W4_keep m ρ c main_v3 (by decide)).trans ((h1_keep _ main_v3 (by decide)).trans (dst2 m ρ c))

-- The three layers' outputs as functions of the arguments.
abbrev X1 : FVec Ideal N128 .f32 :=
  layer7 (arg m c main_arg0) (agg7K (F := Ideal) (arg m c main_arg0) (arg m c main_arg1)) (arg m c main_arg4) (fun k => arg m c main_arg5 (ix1 k)) (arg m c main_arg6) (fun k => arg m c main_arg7 (ix1 k))
abbrev X2 : FVec Ideal N128 .f32 :=
  layer128 (X1 m c) (agg128K (F := Ideal) (X1 m c) (arg m c main_arg1)) (arg m c main_arg8) (fun k => arg m c main_arg9 (ix1 k)) (arg m c main_arg10) (fun k => arg m c main_arg11 (ix1 k))
abbrev X3 : FVec Ideal N128 .f32 :=
  layer128 (X2 m c) (agg128K (F := Ideal) (X2 m c) (arg m c main_arg1)) (arg m c main_arg12) (fun k => arg m c main_arg13 (ix1 k)) (arg m c main_arg14) (fun k => arg m c main_arg15 (ix1 k))

-- A layer's output is the layer function of its operands, each read back to the arguments.
theorem hX1 : W2 m ρ c main_v16 = X1 m c := by
  rw [W2_out, arrAt0_eq]; delta Fr.V1 Fr.W1
  rewrite [arg1 m ρ c main_arg0, arg1 m ρ c main_arg4, arg1 m ρ c main_arg6, h0_v13, h0_v14, h0_v15]
  rfl

theorem hX2 : W4 m ρ c main_v29 = X2 m c := by
  rw [W4_out, arrAt1_eq]; delta Fr.V3 Fr.W3
  rw [h1_keep _ main_v16 (by decide), h1_v26 _ _ (src2 m ρ c) (dst2 m ρ c), hX1, arg3 m ρ c main_arg8, arg3 m ρ c main_arg10,
    h1_v27, arg2 m ρ c main_arg9, h1_v28, arg2 m ρ c main_arg11]

theorem hX3 : W6 m ρ c main_v42 = X3 m c := by
  rw [W6_out, arrAt2_eq]; delta Fr.V5 Fr.W5
  rw [h2_keep _ main_v29 (by decide), h2_v39 _ _ (src4 m ρ c) (dst4 m ρ c), hX2, arg5 m ρ c main_arg12, arg5 m ρ c main_arg14,
    h2_v40, arg4 m ρ c main_arg13, h2_v41, arg4 m ρ c main_arg15]

-- The first two layers' outputs are not written again.
theorem X1_6 : W6 m ρ c main_v16 = X1 m c :=
  (W6_keep m ρ c main_v16 (by decide)).trans ((h2_keep _ main_v16 (by decide)).trans ((W4_keep m ρ c main_v16 (by decide)).trans ((h1_keep _ main_v16 (by decide)).trans (hX1 m ρ c))))
theorem X2_6 : W6 m ρ c main_v29 = X2 m c :=
  (W6_keep m ρ c main_v29 (by decide)).trans ((h2_keep _ main_v29 (by decide)).trans (hX2 m ρ c))

/-- The program's result as a function of the arguments. -/
abbrev kOut : FVec Ideal O2 .f32 :=
  out (agg7K (F := Ideal)) (agg128K (F := Ideal)) (arg m c main_arg0) (arg m c main_arg1) (arg m c main_arg3) (arg m c main_arg4) (arg m c main_arg5) (arg m c main_arg6) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18) (arg m c main_arg19) (arg m c main_arg20) (arg m c main_arg21) (arg m c main_arg22) (arg m c main_arg23) (arg m c main_arg24) (arg m c main_arg25)

theorem kernel_value : W8 m ρ c main_v54 = kOut m c := by
  rw [W8_out, arrAt3_eq]; delta Fr.V7 Fr.W7
  rewrite [h3_keep _ main_v16 (by decide), h3_keep _ main_v29 (by decide), h3_keep _ main_v42 (by decide), X1_6, X2_6, hX3, h3_v43, h3_v44, h3_v45, arg6 m ρ c main_arg16,
    h3_v46, arg6 m ρ c main_arg17, h3_v53, arg6 m ρ c main_arg3, arg7 m ρ c main_arg18, h3_v47, arg6 m ρ c main_arg19,
    h3_v48, arg6 m ρ c main_arg20, h3_v49, arg6 m ρ c main_arg21, h3_v50, arg6 m ρ c main_arg22, h3_v51, arg6 m ρ c main_arg23,
    arg7 m ρ c main_arg24, h3_v52, arg6 m ρ c main_arg25]
  rfl

abbrev args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25]

-- No step of the program writes an argument.
theorem args_ok : ∀ b ∈ args, ¬ (Proc.devRef .tc b : DevRef τ sig).isScoped ∧ b ∉ hostOps0_W ∧ b ∉ hostOps1_W ∧ b ∉ hostOps2_W ∧ b ∉ hostOps3_W
    ∧ b ≠ main_v16 ∧ b ≠ main_v29 ∧ b ≠ main_v42 ∧ b ≠ main_v54 := by decide

/-- The run ends with the result array at `kOut` of the arguments and every argument as launched. -/
theorem kernel_run : θ_run defs (onTc (τ := τ) (main (F := Ideal))) ⟨m, fun _ => 0, ρ⟩ (fun r => ∀ c : Dev nD,
      r.2.mem ((c.tc : Thread nD τ).loc main_v54) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c =>
    ⟨(h c _ (mem_uc main_v54 (by decide))).trans (kernel_value m ρ c),
      (List.forall_iff_forall_mem (l := args) (p := fun b => r.2.mem ((c.tc : Thread nD τ).loc b) = m ((c.tc : Thread nD τ).loc b))).mpr
        fun b hb => have ⟨hs, h0, h1, h2, h3, hv⟩ := args_ok b hb
          (h c _ (mem_uc b hs)).trans (W8_of_arg m ρ c b h0 h1 h2 h3 hv)⟩) (run_main m ρ)

end Cert.KernelIdeal.Val

end
-- ==== Proof.RefPool.lean ====
import proofs.«428666_j20289425506393_1_alg».proof.Proof.Gen.ReferenceIdeal
import proofs.«428666_j20289425506393_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- An update lands on `i` exactly when, on every axis, its start plus its offset is `i`'s coordinate. -/
theorem resultIdx?_eq_some {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  split
  · rename_i h
    rw [Option.some.injEq, funext_iff]
    exact forall_congr' fun a => Fin.ext_iff.trans (by have := h a; show Int.toNat _ = _ ↔ _; omega)
  · rename_i h
    exact iff_of_false nofun fun e => h fun a => by rw [e a]; have := (i a).isLt; omega

/-- Row `n`, feature `b` of the update lands on graph `g`, feature `c` exactly when `b = c` and node `n`'s label is `g`. -/
theorem pool_lands (n : Fin 100000) (b c : Fin 128) (g : Fin 256) (idx : IVec S100000x1 32) :
    scatter_S256x128_S100000x1_S100000x128_1_0_0_1.resultIdx? (ix2 n b) idx = some (ix2 g c) ↔
      b = c ∧ (idx (ix2 n 0)).toInt = (g.val : ℤ) := by
  have h0 : scatter_S256x128_S100000x1_S100000x128_1_0_0_1.start (ix2 n b) idx 0 = (idx (ix2 n 0)).toInt :=
    congrArg (fun k => (idx k).toInt) (funext fun a => match a with | ⟨0, _⟩ => rfl | ⟨1, _⟩ => rfl)
  rw [resultIdx?_eq_some, Fin.forall_fin_two, h0, Fin.ext_iff]
  show _ + ((0 : ℕ) : ℤ) = (g.val : ℤ) ∧ (0 : ℤ) + ((b.val : ℕ) : ℤ) = (c.val : ℤ) ↔ _
  omega

theorem pool_eq (h : FVec Ideal S100000x128 .f32) (idx : IVec S100000x1 32) :
    Host.scatterAdd (F := Ideal) scatter_S256x128_S100000x1_S100000x128_1_0_0_1
      (broadcastInDim S256x128 ![] bcast_S_S256x128 (constant (F := Ideal) S_ .f32 0x00000000#32)) idx h
    = Cert.Spec.pool h (fun n => idx (ValueIdx.ix2 n 0)) := by
  funext i
  obtain ⟨g, c, rfl⟩ : ∃ g c, i = ix2 g c := ⟨i 0, i 1, eq_ix2 i⟩
  show Ideal.ofBits .f32 0x00000000#32 + ∑ j ∈ Finset.univ.filter _, h j = ∑ n, if (idx (ix2 n 0)).toInt = (g.val : ℤ) then h (ix2 n c) else 0
  rw [Ideal.ofBits_zero_f32, zero_add, Finset.sum_filter, sum_idx2]
  simp only [pool_lands, ite_and, Finset.sum_ite_eq', Finset.mem_univ, if_true]

end Cert.ReferenceIdeal.RefValue

end
-- ==== Proof.Ref.lean ====
import proofs.«428666_j20289425506393_1_alg».proof.Proof.Gen.ReferenceIdeal.Read
import proofs.«428666_j20289425506393_1_alg».proof.Proof.Spec
import proofs.«428666_j20289425506393_1_alg».proof.Proof.Agg
import proofs.«428666_j20289425506393_1_alg».proof.Proof.LibSumBlocks
import proofs.«428666_j20289425506393_1_alg».proof.Proof.RefPool
import Idealize.ShloMosaic.Lib.StackMember

noncomputable section

namespace Cert.ReferenceIdeal.RefValue

open Cert.ReferenceIdeal Cert.ReferenceIdeal.Gen Idealize.ShloMosaic Idealize.ShloMosaic.ValueIdx

section Dense
variable {m k n : ℕ}

/-- A vector laid along every row of a matrix reads, at an index, its entry at the index's column. -/
theorem rowbias_apply {α : Type} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (i : (⟨2, ![m, n]⟩ : Shape).Idx) :
    broadcastInDim ⟨2, ![m, n]⟩ ![0, 1] h2 (broadcastInDim ⟨2, ![1, n]⟩ ![1] h1 b) i = b (ix1 (i 1)) := by
  have hn : (i 1).val = if n = 1 then 0 else (i 1).val := by
    have : (i 1).val < n := (i 1).isLt
    split <;> omega
  exact (broadcastInDim_apply _ h2 _ i (ix2 0 (i 1)) fun a => match a with
      | ⟨0, _⟩ => (if_pos rfl).symm
      | ⟨1, _⟩ => hn).trans
    (broadcastInDim_apply _ h1 b _ (ix1 (i 1)) fun a => match a with | ⟨0, _⟩ => hn)

/-- A dense map with its bias row, at an index: the sum over the contracted coordinate plus the bias at the column. -/
theorem dense_apply (d : DotDims ⟨2, ![m, k]⟩ ⟨2, ![k, n]⟩ ⟨2, ![m, n]⟩) (hd : d = .plain m k n)
    (h1 : (⟨1, ![n]⟩ : Shape).BroadcastsInDim ⟨2, ![1, n]⟩ ![1]) (h2 : (⟨2, ![1, n]⟩ : Shape).BroadcastsInDim ⟨2, ![m, n]⟩ ![0, 1])
    (y : FVec Ideal ⟨2, ![m, k]⟩ .f32) (W : FVec Ideal ⟨2, ![k, n]⟩ .f32) (b : FVec Ideal ⟨1, ![n]⟩ .f32)
    (i : (⟨2, ![m, n]⟩ : Shape).Idx) :
    addf (Host.dotGeneral (F := Ideal) d none y W) (broadcastInDim ⟨2, ![m, n]⟩ ![0, 1] h2 (broadcastInDim ⟨2, ![1, n]⟩ ![1] h1 b)) i
      = FloatOps.addf (F := Ideal) (φ := .f32) (∑ c : Fin k, y (ix2 (i 0) c) * W (ix2 c (i 1))) (b (ix1 (i 1))) := by
  subst hd
  exact congrArg₂ (FloatOps.addf (F := Ideal) (φ := .f32))
    ((congrArg _ (eq_ix2 i)).trans (StackMember.dotGeneral_plain_apply none y W (i 0) (i 1))) (rowbias_apply h1 h2 b i)

end Dense

/-- Two dense maps, each with its bias row and the rectifier, at an index. -/
theorem layer_apply {k : ℕ} (d : DotDims ⟨2, ![100000, k]⟩ ⟨2, ![k, 128]⟩ S100000x128) (hd : d = .plain 100000 k 128)
    (y : FVec Ideal ⟨2, ![100000, k]⟩ .f32) (Wa : FVec Ideal ⟨2, ![k, 128]⟩ .f32) (ba : FVec Ideal S128 .f32)
    (Wb : FVec Ideal S128x128 .f32) (bb : FVec Ideal S128 .f32) (i : S100000x128.Idx) :
    maximumf (addf (Host.dotGeneral (F := Ideal) dot_S100000x128_S128x128_S100000x128_1_0_0_1_n_n none
        (maximumf (addf (Host.dotGeneral (F := Ideal) d none y Wa)
            (broadcastInDim S100000x128 ![0, 1] bcast_S1x128_S100000x128_0_1 (broadcastInDim S1x128 ![1] bcast_S128_S1x128_1 ba)))
          (broadcastInDim S100000x128 ![] bcast_S_S100000x128 (constant (F := Ideal) S_ .f32 0x00000000#32))) Wb)
        (broadcastInDim S100000x128 ![0, 1] bcast_S1x128_S100000x128_0_1 (broadcastInDim S1x128 ![1] bcast_S128_S1x128_1 bb)))
      (broadcastInDim S100000x128 ![] bcast_S_S100000x128 (constant (F := Ideal) S_ .f32 0x00000000#32)) i
    = Cert.Spec.relu (FloatOps.addf (F := Ideal) (φ := .f32) (∑ c : Fin 128, Cert.Spec.relu (FloatOps.addf (F := Ideal) (φ := .f32)
        (∑ l : Fin k, y (ix2 (i 0) l) * Wa (ix2 l c)) (ba (ix1 c))) * Wb (ix2 c (i 1))) (bb (ix1 (i 1)))) :=
  congrArg Cert.Spec.relu ((dense_apply _ rfl _ _ _ Wb bb i).trans (congrArg (FloatOps.addf (F := Ideal) (φ := .f32) · _)
    (Finset.sum_congr rfl fun c _ => congrArg (· * _) (congrArg Cert.Spec.relu (dense_apply d hd _ _ y Wa ba (ix2 (i 0) c))))))

/-- Three arrays side by side, read at column `128 s + b`: array `s` at column `b`. -/
theorem concat3_apply (X : Fin 3 → FVec Ideal S100000x128 .f32) (n : Fin 100000) (s : Fin 3) (b : Fin 128) :
    concatenate S100000x384 1 [⟨S100000x128, X 0⟩, ⟨S100000x128, X 1⟩, ⟨S100000x128, X 2⟩]
      concatenates_S100000x128_S100000x128_S100000x128_S100000x384_d1 (ix2 n ⟨s.val * 128 + b.val, Fin.rowMajor_lt s b⟩) = X s (ix2 n b) := by
  have := b.isLt
  exact concatenate_ofFn_apply 1 X concatenates_S100000x128_S100000x128_S100000x128_S100000x384_d1 rfl 128 rfl _ s
    (by show (s.val * 128 + b.val) / 128 = s.val; omega) (ix2 n b) (by show b.val = (s.val * 128 + b.val) % 128; omega)
    (fun a ha => match a with | ⟨0, _⟩ => rfl | ⟨1, _⟩ => absurd rfl ha)

/-- The sum over the 384 columns is taken in three blocks of 128, each against its slice of the weights. -/
theorem jk_apply (X : Fin 3 → FVec Ideal S100000x128 .f32) (Wjk : FVec Ideal S384x128 .f32) (bjk : FVec Ideal S128 .f32)
    (i : S100000x128.Idx) :
    addf (Host.dotGeneral (F := Ideal) dot_S100000x384_S384x128_S100000x128_1_0_0_1_n_n none
        (concatenate S100000x384 1 [⟨S100000x128, X 0⟩, ⟨S100000x128, X 1⟩, ⟨S100000x128, X 2⟩]
          concatenates_S100000x128_S100000x128_S100000x128_S100000x384_d1) Wjk)
      (broadcastInDim S100000x128 ![0, 1] bcast_S1x128_S100000x128_0_1 (broadcastInDim S1x128 ![1] bcast_S128_S1x128_1 bjk)) i
    = Cert.Spec.jk (X 0) (X 1) (X 2) (Cert.Spec.wjkSlice 0 Wjk) (Cert.Spec.wjkSlice 1 Wjk) (Cert.Spec.wjkSlice 2 Wjk)
        (fun c => bjk (ix1 c)) i := by
  refine (dense_apply _ rfl _ _ _ Wjk bjk i).trans (congrArg (FloatOps.addf (F := Ideal) (φ := .f32) · _) ?_)
  refine ((Fin.sum_rowMajor2 3 128 _).trans (Finset.sum_congr rfl fun s _ => Finset.sum_congr rfl fun b _ =>
    congrArg₂ (· * ·) (concat3_apply X (i 0) s b)
      (show Wjk (ix2 ⟨s.val * 128 + b.val, Fin.rowMajor_lt s b⟩ (i 1)) = Cert.Spec.wjkSlice s Wjk (ix2 b (i 1)) from congrArg Wjk (funext fun a => match a with
        | ⟨0, _⟩ => Fin.ext (congrArg (· + b.val) (Nat.mul_comm s.val 128))
        | ⟨1, _⟩ => rfl)))).trans ?_
  exact Fin.sum_univ_three _

variable (x0 : FVec Ideal S100000x7 .f32) (x1 : IVec S2x1600000 32) (x3 : IVec S100000 32) (x4 : FVec Ideal S7x128 .f32)
  (x5 x7 x9 x11 x13 x15 x17 : FVec Ideal S128 .f32) (x6 x8 x10 x12 x14 : FVec Ideal S128x128 .f32)
  (x16 : FVec Ideal S384x128 .f32) (x18 : FVec Ideal S128x256 .f32) (x19 x20 x21 x22 x23 : FVec Ideal S256 .f32)
  (x24 : FVec Ideal S256x2 .f32) (x25 : FVec Ideal S2 .f32)

/-- The reference's last value is the network function: each stage read at an index and instantiated at the one before. -/
theorem val_out : Read.val_main_v98 (F := Ideal) x0 x1 x3 x4 x5 x6 x7 x8 x9 x10 x11 x12 x13 x14 x15 x16 x17 x18 x19 x20 x21 x22 x23 x24 x25
    = Cert.Spec.out (Cert.Agg.agg7R (F := Ideal)) (Cert.Agg.agg128R (F := Ideal)) x0 x1 x3 x4 x5 x6 x7 x8 x9 x10 x11 x12 x13 x14 x15 x16 x17 x18 x19 x20 x21 x22 x23 x24 x25 := by
  let v1 := Read.val_main_v24 (F := Ideal) x0 x1 x4 x5 x6 x7
  let v2 := Read.val_main_v45 (F := Ideal) x0 x1 x4 x5 x6 x7 x8 x9 x10 x11
  let v3 := Read.val_main_v66 (F := Ideal) x0 x1 x4 x5 x6 x7 x8 x9 x10 x11 x12 x13 x14 x15
  let v4 := Read.val_main_v71 (F := Ideal) x0 x1 x4 x5 x6 x7 x8 x9 x10 x11 x12 x13 x14 x15 x16 x17
  let v5 := Read.val_main_v74 (F := Ideal) x0 x1 x3 x4 x5 x6 x7 x8 x9 x10 x11 x12 x13 x14 x15 x16 x17
  have h1 : v1 = Cert.Spec.layer7 x0 (Cert.Agg.agg7R (F := Ideal) x0 x1) x4 (fun c => x5 (ix1 c)) x6 (fun c => x7 (ix1 c)) :=
    funext (layer_apply _ rfl _ x4 x5 x6 x7)
  have h2 : v2 = Cert.Spec.layer128 v1 (Cert.Agg.agg128R (F := Ideal) v1 x1) x8 (fun c => x9 (ix1 c)) x10 (fun c => x11 (ix1 c)) :=
    funext (layer_apply _ rfl _ x8 x9 x10 x11)
  have h3 : v3 = Cert.Spec.layer128 v2 (Cert.Agg.agg128R (F := Ideal) v2 x1) x12 (fun c => x13 (ix1 c)) x14 (fun c => x15 (ix1 c)) :=
    funext (layer_apply _ rfl _ x12 x13 x14 x15)
  have h4 : v4 = Cert.Spec.jk v1 v2 v3 (Cert.Spec.wjkSlice 0 x16) (Cert.Spec.wjkSlice 1 x16) (Cert.Spec.wjkSlice 2 x16) (fun c => x17 (ix1 c)) :=
    funext (jk_apply ![v1, v2, v3] x16 x17)
  have h5 : v5 = Cert.Spec.pool v4 (fun n => x3 (ix1 n)) :=
    (pool_eq v4 _).trans (congrArg (Cert.Spec.pool v4) (funext fun n =>
      (Read.val_main_v73_apply (F := Ideal) x3 (ix2 n 0)).trans (congrArg x3 (funext fun a => match a with | ⟨0, _⟩ => rfl))))
  have h6 : Read.val_main_v98 (F := Ideal) x0 x1 x3 x4 x5 x6 x7 x8 x9 x10 x11 x12 x13 x14 x15 x16 x17 x18 x19 x20 x21 x22 x23 x24 x25
      = Cert.Spec.cls v5 x18 (fun c => x19 (ix1 c)) (fun c => x20 (ix1 c)) (fun c => x21 (ix1 c)) (fun c => x22 (ix1 c))
        (fun c => x23 (ix1 c)) x24 (fun c => x25 (ix1 c)) := by
    funext i
    refine (dense_apply _ rfl _ _ _ x24 x25 i).trans (congrArg₂ (FloatOps.addf (F := Ideal) (φ := .f32)) ?_ rfl)
    refine Finset.sum_congr rfl fun c _ => congrArg₂ (· * ·) (congrArg Cert.Spec.relu ?_) rfl
    have rb : ∀ v : FVec Ideal S256 .f32, broadcastInDim S256x256 ![0, 1] bcast_S1x256_S256x256_0_1
        (broadcastInDim S1x256 ![1] bcast_S256_S1x256_1 v) (ix2 (i 0) c) = v (ix1 c) := fun v => rowbias_apply _ _ v _
    exact congrArg₂ (FloatOps.addf (F := Ideal)) (congrArg₂ (FloatOps.mulf (F := Ideal)) (congrArg₂ (FloatOps.mulf (F := Ideal))
      (congrArg₂ (FloatOps.subf (F := Ideal)) (dense_apply _ rfl _ _ _ x18 x19 (ix2 (i 0) c)) (rb x22)) (rb _)) (rb x20)) (rb x21)
  rw [h6, h5, h4, h3, h2, h1]
  rfl

theorem result_eq (m : (ℓ : Loc nD τ sig) → Buf (Elt Ideal) ℓ) (c : Dev nD) :
    Cert.ReferenceIdeal.Value.res_main_v98 (F := Ideal) m c =
      Cert.Spec.out (Cert.Agg.agg7R (F := Ideal)) (Cert.Agg.agg128R (F := Ideal))
        (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) :=
  (Read.val_main_v98_eq (F := Ideal) m c).trans (val_out _ _ _ _ _ _ _ _ _ _ _ _ _ _ _ _ _ _ _ _ _ _ _ _ _)

end Cert.ReferenceIdeal.RefValue

end
-- ==== Proof.lean ====
/- Both programs compute one function of the arguments on the extended reals; the two differ only in how finite sums are grouped. -/
import proofs.«428666_j20289425506393_1_alg».proof.Defs
import proofs.«428666_j20289425506393_1_alg».proof.Proof.Gen.Kernel
import proofs.«428666_j20289425506393_1_alg».proof.Proof.Gen.KernelIdeal
import proofs.«428666_j20289425506393_1_alg».proof.Proof.Gen.ReferenceIdeal
import proofs.«428666_j20289425506393_1_alg».proof.Proof.Gen.Pre_finite_inputs
import proofs.«428666_j20289425506393_1_alg».proof.Proof.Gen.ReferenceIdeal.Run
import proofs.«428666_j20289425506393_1_alg».proof.Proof.Gen.ReferenceIdeal.Read
import proofs.«428666_j20289425506393_1_alg».proof.Proof.K.Run
import proofs.«428666_j20289425506393_1_alg».proof.Proof.KI.Run
import proofs.«428666_j20289425506393_1_alg».proof.Proof.KI.Final
import proofs.«428666_j20289425506393_1_alg».proof.Proof.Ref
import proofs.«428666_j20289425506393_1_alg».proof.Proof.Agg
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both runs end at the network function `Spec.out` of them; the two aggregations are one function. -/
theorem algebraic : Cert.algebraic_KernelIdeal_ReferenceIdeal := by
  intro m ρ m' ρ' _ hagree
  refine ⟨fun c => Cert.KernelIdeal.Val.kOut m c, Cert.KernelIdeal.Val.kernel_run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22, h23, h24, h25⟩ := hagree c
  rw [Cert.ReferenceIdeal.RefValue.result_eq m' c, h0, h1, h3, h4, h5, h6, h7, h8, h9, h10, h11, h12, h13, h14, h15, h16, h17, h18, h19, h20, h21, h22, h23, h24, h25, ← Cert.Agg.agg7K_eq_agg7R, ← Cert.Agg.agg128K_eq_agg128R]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
